-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x16 : Shape := ⟨2, ![500000, 16]⟩
abbrev S2x5000000 : Shape := ⟨2, ![2, 5000000]⟩
abbrev S5000000x16 : Shape := ⟨2, ![5000000, 16]⟩
abbrev S16x16 : Shape := ⟨2, ![16, 16]⟩
abbrev S16 : Shape := ⟨1, ![16]⟩
abbrev S_ : Shape := ⟨0, ![]⟩

class Facts : Prop where
  bcast_S_S500000x16 : S_.BroadcastsInDim S500000x16 (![] : Fin 0 → Fin S500000x16.rank)
  reducesTo_S500000x16_S_d0_1 : S500000x16.ReducesTo [0, 1] S_
  h_S_ : 0 < S_.numel
  bcast_S_S5000000x16 : S_.BroadcastsInDim S5000000x16 (![] : Fin 0 → Fin S5000000x16.rank)
  reducesTo_S5000000x16_S_d0_1 : S5000000x16.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S2x5000000 : S_.BroadcastsInDim S2x5000000 (![] : Fin 0 → Fin S2x5000000.rank)
  reducesTo_S2x5000000_S_d0_1 : S2x5000000.ReducesTo [0, 1] S_

variable [Facts]

def fn_part4 {F : FTy → Type} [FloatOps F] (main_arg1 : IVec S2x5000000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x5000000 32 := broadcastInDim S2x5000000 ![] bcast_S_S2x5000000 main_c_26
  let main_v70 : IVec S2x5000000 1 := cmpi .sge main_arg1 main_v69
  let main_c_27 : IVec S_ 1 := constantI S_ 1 1#1
  let main_v71 : IVec S_ 1 := (fun x v => Host.reduce IntOp.andi x v reducesTo_S2x5000000_S_d0_1 h_S_) main_v70 main_c_27
  let main_v72 : IVec S_ 1 := andi main_v68 main_v71
  let main_c_28 : IVec S_ 32 := constantI S_ 32 500000#32
  let main_v73 : IVec S2x5000000 32 := broadcastInDim S2x5000000 ![] bcast_S_S2x5000000 main_c_28
  let main_v74 : IVec S2x5000000 1 := cmpi .slt main_arg1 main_v73
  let main_c_29 : IVec S_ 1 := constantI S_ 1 1#1
  let main_v75 : IVec S_ 1 := (fun x v => Host.reduce IntOp.andi x v reducesTo_S2x5000000_S_d0_1 h_S_) main_v74 main_c_29
  let main_v76 : IVec S_ 1 := andi main_v72 main_v75
  main_v76

def fn_part3 {F : FTy → Type} [FloatOps F] (main_arg1 : IVec S2x5000000 32) (main_arg12 : FVec F S16 .f32) (main_arg13 : FVec F S16 .f32) (main_arg14 : FVec F S16 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16 .f32 := Host.absf main_arg14
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg1 main_v63 main_v67

def fn_part2 {F : FTy → Type} [FloatOps F] (main_arg1 : IVec S2x5000000 32) (main_arg8 : FVec F S16 .f32) (main_arg9 : FVec F S16x16 .f32) (main_arg10 : FVec F S16x16 .f32) (main_arg11 : FVec F S16 .f32) (main_arg12 : FVec F S16 .f32) (main_arg13 : FVec F S16 .f32) (main_arg14 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x16 .f32 := Host.absf main_arg9
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S16x16 .f32 := Host.absf main_arg10
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg1 main_arg12 main_arg13 main_arg14 main_v48 main_v49 main_v50

def fn_part1 {F : FTy → Type} [FloatOps F] (main_arg1 : IVec S2x5000000 32) (main_arg5 : FVec F S16x16 .f32) (main_arg6 : FVec F S16 .f32) (main_arg7 : FVec F S16x16 .f32) (main_arg8 : FVec F S16 .f32) (main_arg9 : FVec F S16x16 .f32) (main_arg10 : FVec F S16x16 .f32) (main_arg11 : FVec F S16 .f32) (main_arg12 : FVec F S16 .f32) (main_arg13 : FVec F S16 .f32) (main_arg14 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S500000x16 .f32) (main_arg1 : IVec S2x5000000 32) (main_arg2 : FVec F S5000000x16 .f32) (main_arg3 : FVec F S16x16 .f32) (main_arg4 : FVec F S16 .f32) (main_arg5 : FVec F S16x16 .f32) (main_arg6 : FVec F S16 .f32) (main_arg7 : FVec F S16x16 .f32) (main_arg8 : FVec F S16 .f32) (main_arg9 : FVec F S16x16 .f32) (main_arg10 : FVec F S16x16 .f32) (main_arg11 : FVec F S16 .f32) (main_arg12 : FVec F S16 .f32) (main_arg13 : FVec F S16 .f32) (main_arg14 : FVec F S16 .f32) : IVec S_ 1 :=
  let main_v0 : FVec F S500000x16 .f32 := Host.absf main_arg0
  let main_cst : FVec F S_ .f32 := constant S_ .f32 0x7F800000#32
  let main_v1 : FVec F S500000x16 .f32 := broadcastInDim S500000x16 ![] bcast_S_S500000x16 main_cst
  let main_v2 : IVec S500000x16 1 := cmpf .olt main_v0 main_v1
  let main_c : IVec S_ 1 := constantI S_ 1 1#1
  let main_v3 : IVec S_ 1 := (fun x v => Host.reduce IntOp.andi x v reducesTo_S500000x16_S_d0_1 h_S_) main_v2 main_c
  let main_v4 : FVec F S5000000x16 .f32 := Host.absf main_arg2
  let main_cst_0 : FVec F S_ .f32 := constant S_ .f32 0x7F800000#32
  let main_v5 : FVec F S5000000x16 .f32 := broadcastInDim S5000000x16 ![] bcast_S_S5000000x16 main_cst_0
  let main_v6 : IVec S5000000x16 1 := cmpf .olt main_v4 main_v5
  let main_c_1 : IVec S_ 1 := constantI S_ 1 1#1
  let main_v7 : IVec S_ 1 := (fun x v => Host.reduce IntOp.andi x v reducesTo_S5000000x16_S_d0_1 h_S_) main_v6 main_c_1
  let main_v8 : IVec S_ 1 := andi main_v3 main_v7
  let main_v9 : FVec F S16x16 .f32 := Host.absf main_arg3
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S500000x16 : Shape := ⟨2, ![500000, 16]⟩
abbrev S2x5000000 : Shape := ⟨2, ![2, 5000000]⟩
abbrev S5000000x16 : Shape := ⟨2, ![5000000, 16]⟩
abbrev S16x16 : Shape := ⟨2, ![16, 16]⟩
abbrev S16 : Shape := ⟨1, ![16]⟩
abbrev S1x5000000 : Shape := ⟨2, ![1, 5000000]⟩
abbrev S5000000 : Shape := ⟨1, ![5000000]⟩
abbrev S16x64 : Shape := ⟨2, ![16, 64]⟩
abbrev S64 : Shape := ⟨1, ![64]⟩
abbrev S500000x64 : Shape := ⟨2, ![500000, 64]⟩
abbrev S5000x16 : Shape := ⟨2, ![5000, 16]⟩
abbrev S5000x64 : Shape := ⟨2, ![5000, 64]⟩
abbrev S1x64 : Shape := ⟨2, ![1, 64]⟩
abbrev S10000x16 : Shape := ⟨2, ![10000, 16]⟩
abbrev S_ : Shape := ⟨0, ![]⟩
abbrev S5000000x1 : Shape := ⟨2, ![5000000, 1]⟩
abbrev S1 : Shape := ⟨1, ![1]⟩
abbrev S1x1 : Shape := ⟨2, ![1, 1]⟩
abbrev S62500x128 : Shape := ⟨2, ![62500, 128]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S3200x128 : Shape := ⟨2, ![3200, 128]⟩

abbrev nBuf : Space → Nat
  | .hbm => 153
  | .vmem => 30
  | .smem => 0
  | _ => 0

abbrev hbmTy0_0 (i : Nat) : BufTy := match i % 128 with
  | 0 => ⟨S500000x16, .f32⟩
  | 1 => ⟨S2x5000000, .i32⟩
  | 2 => ⟨S5000000x16, .f32⟩
  | 3 => ⟨S16x16, .f32⟩
  | 4 => ⟨S16, .f32⟩
  | 5 => ⟨S16x16, .f32⟩
  | 6 => ⟨S16, .f32⟩
  | 7 => ⟨S16x16, .f32⟩
  | 8 => ⟨S16, .f32⟩
  | 9 => ⟨S16x16, .f32⟩
  | 10 => ⟨S16x16, .f32⟩
  | 11 => ⟨S16, .f32⟩
  | 12 => ⟨S16, .f32⟩
  | 13 => ⟨S16, .f32⟩
  | 14 => ⟨S16, .f32⟩
  | 15 => ⟨S1x5000000, .i32⟩
  | 16 => ⟨S5000000, .i32⟩
  | 17 => ⟨S1x5000000, .i32⟩
  | 18 => ⟨S5000000, .i32⟩
  | 19 => ⟨S16x64, .f32⟩
  | 20 => ⟨S64, .f32⟩
  | 21 => ⟨S500000x64, .f32⟩
  | 22 => ⟨S500000x16, .f32⟩
  | 23 => ⟨S500000x16, .f32⟩
  | 24 => ⟨S500000x16, .f32⟩
  | 25 => ⟨S500000x16, .f32⟩
  | 26 => ⟨S5000000x16, .f32⟩
  | 27 => ⟨S_, .i32⟩
  | 28 => ⟨S5000000, .i32⟩
  | 29 => ⟨S5000000, .i1⟩
  | 30 => ⟨S_, .i32⟩
  | 31 => ⟨S5000000, .i32⟩
  | 32 => ⟨S5000000, .i32⟩
  | 33 => ⟨S5000000, .i32⟩
  | 34 => ⟨S5000000x1, .i32⟩
  | 35 => ⟨S1, .i32⟩
  | 36 => ⟨S_, .i32⟩
  | 37 => ⟨S5000000x1, .i32⟩
  | 38 => ⟨S5000000x1, .i1⟩
  | 39 => ⟨S1x1, .i32⟩
  | 40 => ⟨S5000000x1, .i32⟩
  | 41 => ⟨S5000000x1, .i1⟩
  | 42 => ⟨S5000000x1, .i1⟩
  | 43 => ⟨S_, .i1⟩
  | 44 => ⟨S5000000, .i1⟩
  | 45 => ⟨S5000000x16, .f32⟩
  | 46 => ⟨S5000000x16, .i1⟩
  | 47 => ⟨S_, .f32⟩
  | 48 => ⟨S5000000x16, .f32⟩
  | 49 => ⟨S5000000x16, .f32⟩
  | 50 => ⟨S_, .i32⟩
  | 51 => ⟨S5000000, .i32⟩
  | 52 => ⟨S5000000, .i1⟩
  | 53 => ⟨S_, .i32⟩
  | 54 => ⟨S5000000, .i32⟩
  | 55 => ⟨S5000000, .i32⟩
  | 56 => ⟨S5000000, .i32⟩
  | 57 => ⟨S5000000x1, .i32⟩
  | 58 => ⟨S1, .i32⟩
  | 59 => ⟨S_, .i32⟩
  | 60 => ⟨S5000000x1, .i32⟩
  | 61 => ⟨S5000000x1, .i1⟩
  | 62 => ⟨S1x1, .i32⟩
  | 63 => ⟨S5000000x1, .i32⟩
  | 64 => ⟨S5000000x1, .i1⟩
  | 65 => ⟨S5000000x1, .i1⟩
  | 66 => ⟨S_, .i1⟩
  | 67 => ⟨S5000000, .i1⟩
  | 68 => ⟨S5000000x16, .f32⟩
  | 69 => ⟨S5000000x16, .i1⟩
  | 70 => ⟨S_, .f32⟩
  | 71 => ⟨S5000000x16, .f32⟩
  | 72 => ⟨S5000000x16, .f32⟩
  | 73 => ⟨S_, .i32⟩
  | 74 => ⟨S5000000, .i32⟩
  | 75 => ⟨S5000000, .i1⟩
  | 76 => ⟨S_, .i32⟩
  | 77 => ⟨S5000000, .i32⟩
  | 78 => ⟨S5000000, .i32⟩
  | 79 => ⟨S5000000, .i32⟩
  | 80 => ⟨S5000000x1, .i32⟩
  | 81 => ⟨S1, .i32⟩
  | 82 => ⟨S_, .i32⟩
  | 83 => ⟨S5000000x1, .i32⟩
  | 84 => ⟨S5000000x1, .i1⟩
  | 85 => ⟨S1x1, .i32⟩
  | 86 => ⟨S5000000x1, .i32⟩
  | 87 => ⟨S5000000x1, .i1⟩
  | 88 => ⟨S5000000x1, .i1⟩
  | 89 => ⟨S_, .i1⟩
  | 90 => ⟨S5000000, .i1⟩
  | 91 => ⟨S5000000x16, .f32⟩
  | 92 => ⟨S5000000x16, .i1⟩
  | 93 => ⟨S_, .f32⟩
  | 94 => ⟨S5000000x16, .f32⟩
  | 95 => ⟨S5000000x16, .f32⟩
  | 96 => ⟨S5000000x16, .f32⟩
  | 97 => ⟨S5000000x16, .f32⟩
  | 98 => ⟨S5000000x16, .f32⟩
  | 99 => ⟨S5000000x16, .f32⟩
  | 100 => ⟨S_, .f32⟩
  | 101 => ⟨S5000000x16, .f32⟩
  | 102 => ⟨S5000000x16, .f32⟩
  | 103 => ⟨S_, .f32⟩
  | 104 => ⟨S5000000x16, .f32⟩
  | 105 => ⟨S5000000x16, .f32⟩
  | 106 => ⟨S5000000x16, .f32⟩
  | 107 => ⟨S_, .f32⟩
  | 108 => ⟨S500000x16, .f32⟩
  | 109 => ⟨S5000000x1, .i32⟩
  | 110 => ⟨S500000x16, .f32⟩
  | 111 => ⟨S62500x128, .f32⟩
  | 112 => ⟨S62500x128, .f32⟩
  | 113 => ⟨S1x16, .f32⟩
  | 114 => ⟨S8x16, .f32⟩
  | 115 => ⟨S128, .f32⟩
  | 116 => ⟨S1x128, .f32⟩
  | 117 => ⟨S62500x128, .f32⟩
  | 118 => ⟨S1x128, .f32⟩
  | 119 => ⟨S1x128, .f32⟩
  | 120 => ⟨S8x16, .f32⟩
  | 121 => ⟨S_, .f32⟩
  | 122 => ⟨S16, .f32⟩
  | 123 => ⟨S8x16, .f32⟩
  | 124 => ⟨S_, .f32⟩
  | 125 => ⟨S16, .f32⟩
  | 126 => ⟨S_, .f32⟩
  | 127 => ⟨S16, .f32⟩
  | _ => ⟨S500000x16, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S16, .f32⟩
  | 5 => ⟨S16, .f32⟩
  | 6 => ⟨S1x16, .f32⟩
  | 7 => ⟨S8x16, .f32⟩
  | 8 => ⟨S128, .f32⟩
  | 9 => ⟨S1x128, .f32⟩
  | 10 => ⟨S1x16, .f32⟩
  | 11 => ⟨S8x16, .f32⟩
  | 12 => ⟨S128, .f32⟩
  | 13 => ⟨S1x128, .f32⟩
  | 14 => ⟨S1x16, .f32⟩
  | 15 => ⟨S8x16, .f32⟩
  | 16 => ⟨S128, .f32⟩
  | 17 => ⟨S1x128, .f32⟩
  | 18 => ⟨S1x16, .f32⟩
  | 19 => ⟨S8x16, .f32⟩
  | 20 => ⟨S128, .f32⟩
  | 21 => ⟨S1x128, .f32⟩
  | 22 => ⟨S62500x128, .f32⟩
  | 23 => ⟨S62500x128, .f32⟩
  | 24 => ⟨S500000x16, .f32⟩
  | _ => ⟨S500000x16, .f32⟩

abbrev hbmTy (i : Nat) : BufTy := match i / 128 with
  | 0 => hbmTy0_0 i
  | 1 => hbmTy0_1 i
  | _ => ⟨S500000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S10000x16, .f32⟩
  | .local _ .vmem, ⟨7, _⟩ => ⟨S10000x16, .f32⟩
  | .local _ .vmem, ⟨8, _⟩ => ⟨S16x16, .f32⟩
  | .local _ .vmem, ⟨9, _⟩ => ⟨S10000x16, .f32⟩
  | .local _ .vmem, ⟨10, _⟩ => ⟨S10000x16, .f32⟩
  | .local _ .vmem, ⟨11, _⟩ => ⟨S3200x128, .f32⟩
  | .local _ .vmem, ⟨12, _⟩ => ⟨S3200x128, .f32⟩
  | .local _ .vmem, ⟨13, _⟩ => ⟨S3200x128, .f32⟩
  | .local _ .vmem, ⟨14, _⟩ => ⟨S3200x128, .f32⟩
  | .local _ .vmem, ⟨15, _⟩ => ⟨S1x128, .f32⟩
  | .local _ .vmem, ⟨16, _⟩ => ⟨S3200x128, .f32⟩
  | .local _ .vmem, ⟨17, _⟩ => ⟨S3200x128, .f32⟩
  | .local _ .vmem, ⟨18, _⟩ => ⟨S1x128, .f32⟩
  | .local _ .vmem, ⟨19, _⟩ => ⟨S1x128, .f32⟩
  | .local _ .vmem, ⟨20, _⟩ => ⟨S3200x128, .f32⟩
  | .local _ .vmem, ⟨21, _⟩ => ⟨S3200x128, .f32⟩
  | .local _ .vmem, ⟨22, _⟩ => ⟨S3200x128, .f32⟩
  | .local _ .vmem, ⟨23, _⟩ => ⟨S3200x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S3200x128, .f32⟩
  | .local _ .vmem, ⟨29, _⟩ => ⟨S3200x128, .f32⟩
  | _, _ => ⟨S500000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v12 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v13 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_cst : Ref sig .tc := ⟨.hbm, 100, rfl⟩
abbrev main_v19 : Ref sig .tc := ⟨.hbm, 101, rfl⟩
abbrev main_v20 : Ref sig .tc := ⟨.hbm, 102, rfl⟩
abbrev main_cst_0 : Ref sig .tc := ⟨.hbm, 103, rfl⟩
abbrev main_v21 : Ref sig .tc := ⟨.hbm, 104, rfl⟩
abbrev main_v22 : Ref sig .tc := ⟨.hbm, 105, rfl⟩
abbrev main_v23 : Ref sig .tc := ⟨.hbm, 106, rfl⟩
abbrev main_cst_1 : Ref sig .tc := ⟨.hbm, 107, rfl⟩
abbrev main_v24 : Ref sig .tc := ⟨.hbm, 108, rfl⟩
abbrev main_v25 : Ref sig .tc := ⟨.hbm, 109, rfl⟩
abbrev main_v26 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_v33_0 : Ref sig .tc := ⟨.hbm, 117, rfl⟩
abbrev main_v33_1 : Ref sig .tc := ⟨.hbm, 118, rfl⟩
abbrev main_v33_2 : Ref sig .tc := ⟨.hbm, 119, rfl⟩
abbrev main_v34 : Ref sig .tc := ⟨.hbm, 120, rfl⟩
abbrev main_cst_2 : Ref sig .tc := ⟨.hbm, 121, rfl⟩
abbrev main_v35 : Ref sig .tc := ⟨.hbm, 122, rfl⟩
abbrev main_v36 : Ref sig .tc := ⟨.hbm, 123, rfl⟩
abbrev main_cst_3 : Ref sig .tc := ⟨.hbm, 124, rfl⟩
abbrev main_v37 : Ref sig .tc := ⟨.hbm, 125, rfl⟩
abbrev main_cst_4 : Ref sig .tc := ⟨.hbm, 126, rfl⟩
abbrev main_v38 : Ref sig .tc := ⟨.hbm, 127, rfl⟩
abbrev main_v39 : Ref sig .tc := ⟨.hbm, 128, rfl⟩
abbrev main_cst_5 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem5_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S3200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3200x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S3200x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3200x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3200x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S3200x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  concatenates_S16x16_S16x16_S16x16_S16x16_S16x64_d1 : Shape.Concatenates [S16x16, S16x16, S16x16, S16x16] S16x64 1
  concatenates_S16_S16_S16_S16_S64_d0 : Shape.Concatenates [S16, S16, S16, S16] S64 0
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S500000x64_S500000x16_0_0 : S500000x64.Slices ![0, 0] S500000x16
  slices_S500000x64_S500000x16_0_16 : S500000x64.Slices ![0, 16] S500000x16
  slices_S500000x64_S500000x16_0_32 : S500000x64.Slices ![0, 32] S500000x16
  slices_S500000x64_S500000x16_0_48 : S500000x64.Slices ![0, 48] S500000x16
  inb_S10000x16_S10000x16_0_0 : ∀ a, (![0, 0] : Fin 2 → Nat) a + S10000x16.size a ≤ S10000x16.size a
  h_S10000x16 : 0 < S10000x16.numel
  inb_S16x16_S16x16_0_0 : ∀ a, (![0, 0] : Fin 2 → Nat) a + S16x16.size a ≤ S16x16.size a
  h_S16x16 : 0 < S16x16.numel
  bcast_S_S5000000 : S_.BroadcastsInDim S5000000 (![] : Fin 0 → Fin S5000000.rank)
  bcast_S5000000_S5000000x1_0 : S5000000.BroadcastsInDim S5000000x1 (![0] : Fin 1 → Fin S5000000x1.rank)
  bcast_S_S5000000x1 : S_.BroadcastsInDim S5000000x1 (![] : Fin 0 → Fin S5000000x1.rank)
  bcast_S1_S1x1_1 : S1.BroadcastsInDim S1x1 (![1] : Fin 1 → Fin S1x1.rank)
  bcast_S1x1_S5000000x1_0_1 : S1x1.BroadcastsInDim S5000000x1 (![0, 1] : Fin 2 → Fin S5000000x1.rank)
  reducesTo_S5000000x1_S5000000_d1 : S5000000x1.ReducesTo [1] S5000000
  h_S_ : 0 < S_.numel
  bcast_S5000000_S5000000x16_0 : S5000000.BroadcastsInDim S5000000x16 (![0] : Fin 1 → Fin S5000000x16.rank)
  bcast_S_S5000000x16 : S_.BroadcastsInDim S5000000x16 (![] : Fin 0 → Fin S5000000x16.rank)
  bcast_S_S500000x16 : S_.BroadcastsInDim S500000x16 (![] : Fin 0 → Fin S500000x16.rank)
  shapeCasts_S500000x16_S62500x128 : S500000x16.ShapeCasts S62500x128
  shapeCasts_S16_S1x16 : S16.ShapeCasts S1x16
  bcast_S1x16_S8x16_0_1 : S1x16.BroadcastsInDim S8x16 (![0, 1] : Fin 2 → Fin S8x16.rank)
  shapeCasts_S8x16_S128 : S8x16.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  shapeCasts_S1x128_S1x128 : S1x128.ShapeCasts S1x128
  broadcasts_S1x128_S3200x128 : S1x128.Broadcasts S3200x128
  iota_S3200x128_d0_w32 : S3200x128.Iotas .tc 32 [0]
  reduces_S3200x128_S128 : S3200x128.Reduces [0] S128
  shapeCasts_S1x128_S8x16 : S1x128.ShapeCasts S8x16
  reducesTo_S8x16_S16_d0 : S8x16.ReducesTo [0] S16
  bcast_S_S16 : S_.BroadcastsInDim S16 (![] : Fin 0 → Fin S16.rank)
  shapeCasts_S62500x128_S500000x16 : S62500x128.ShapeCasts S500000x16
  dot_S5000x16_S16x64_S5000x64_1_0_0_1_n_n_wf : DotDims.WF S5000x16 S16x64 S5000x64 [1] [0] [0] [1] [] []
  dot_S10000x16_S16x16_S10000x16_1_0_0_1_n_n_wf : DotDims.WF S10000x16 S16x16 S10000x16 [1] [0] [0] [1] [] []
  gather_S500000x16_S5000000x1_S5000000x16_1_0_n_n_0_1_116_wf : GatherDims.WF S500000x16 S5000000x1 S5000000x16 [1] [0] [] [0] [] 1 ![1, 16]
  scatter_S500000x16_S5000000x1_S5000000x16_1_0_0_1_wf : ScatterDims.WF S500000x16 S5000000x1 S5000000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S500000x16.size a
  hwx0_0 : ∀ i : grid0.Coords, EltTy.bits .f32 = 32 ∨ (Rect.block (s := S500000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S500000x64.size a
  hwx0_3 : ∀ i : grid0.Coords, EltTy.bits .f32 = 32 ∨ (Rect.block (s := S500000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S5000000x16.size a
  hwx1_0 : ∀ i : grid1.Coords, EltTy.bits .f32 = 32 ∨ (Rect.block (s := S5000000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S5000000x16.size a
  hwx1_2 : ∀ i : grid1.Coords, EltTy.bits .f32 = 32 ∨ (Rect.block (s := S5000000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S3200x128.size a < S62500x128.size a
  hwx2_0 : ∀ i : grid2.Coords, EltTy.bits .f32 = 32 ∨ (Rect.unit (s := S62500x128) (fun a => cc2_transform_0 i a * S3200x128.size a) (fun a => (Pipeline.Clip.of (cc2_transform_0 i a) (S3200x128.size a) (S62500x128.size a)).extent (S3200x128.size a)) fun a => Pipeline.Clip.inb (Pipeline.Clip.ok_of (hstart2_0 i a))).WholeWords (EltTy.packing .f32)
  hwxs2_0 : ∀ i : grid2.Coords, EltTy.bits .f32 = 32 ∨ (Rect.unit (s := S3200x128) (fun _ => 0) (fun a => (Pipeline.Clip.of (cc2_transform_0 i a) (S3200x128.size a) (S62500x128.size a)).extent (S3200x128.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S3200x128.size a < S62500x128.size a
  hwx2_1 : ∀ i : grid2.Coords, EltTy.bits .f32 = 32 ∨ (Rect.unit (s := S62500x128) (fun a => cc2_transform_1 i a * S3200x128.size a) (fun a => (Pipeline.Clip.of (cc2_transform_1 i a) (S3200x128.size a) (S62500x128.size a)).extent (S3200x128.size a)) fun a => Pipeline.Clip.inb (Pipeline.Clip.ok_of (hstart2_1 i a))).WholeWords (EltTy.packing .f32)
  hwxs2_1 : ∀ i : grid2.Coords, EltTy.bits .f32 = 32 ∨ (Rect.unit (s := S3200x128) (fun _ => 0) (fun a => (Pipeline.Clip.of (cc2_transform_1 i a) (S3200x128.size a) (S62500x128.size a)).extent (S3200x128.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S3200x128.size a < S62500x128.size a
  hwx2_3 : ∀ i : grid2.Coords, EltTy.bits .f32 = 32 ∨ (Rect.unit (s := S62500x128) (fun a => cc2_transform_3 i a * S3200x128.size a) (fun a => (Pipeline.Clip.of (cc2_transform_3 i a) (S3200x128.size a) (S62500x128.size a)).extent (S3200x128.size a)) fun a => Pipeline.Clip.inb (Pipeline.Clip.ok_of (hstart2_3 i a))).WholeWords (EltTy.packing .f32)
  hwxs2_3 : ∀ i : grid2.Coords, EltTy.bits .f32 = 32 ∨ (Rect.unit (s := S3200x128) (fun _ => 0) (fun a => (Pipeline.Clip.of (cc2_transform_3 i a) (S3200x128.size a) (S62500x128.size a)).extent (S3200x128.size a)) fun a => (Nat.zero_add _).trans_le (Pipeline.Clip.extent_le (Pipeline.Clip.ok_of (hstart2_3 i a)))).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S3200x128.size a < S62500x128.size a
  hwx3_0 : ∀ i : grid3.Coords, EltTy.bits .f32 = 32 ∨ (Rect.unit (s := S62500x128) (fun a => cc3_transform_0 i a * S3200x128.size a) (fun a => (Pipeline.Clip.of (cc3_transform_0 i a) (S3200x128.size a) (S62500x128.size a)).extent (S3200x128.size a)) fun a => Pipeline.Clip.inb (Pipeline.Clip.ok_of (hstart3_0 i a))).WholeWords (EltTy.packing .f32)
  hwxs3_0 : ∀ i : grid3.Coords, EltTy.bits .f32 = 32 ∨ (Rect.unit (s := S3200x128) (fun _ => 0) (fun a => (Pipeline.Clip.of (cc3_transform_0 i a) (S3200x128.size a) (S62500x128.size a)).extent (S3200x128.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S3200x128.size a < S62500x128.size a
  hwx3_1 : ∀ i : grid3.Coords, EltTy.bits .f32 = 32 ∨ (Rect.unit (s := S62500x128) (fun a => cc3_transform_1 i a * S3200x128.size a) (fun a => (Pipeline.Clip.of (cc3_transform_1 i a) (S3200x128.size a) (S62500x128.size a)).extent (S3200x128.size a)) fun a => Pipeline.Clip.inb (Pipeline.Clip.ok_of (hstart3_1 i a))).WholeWords (EltTy.packing .f32)
  hwxs3_1 : ∀ i : grid3.Coords, EltTy.bits .f32 = 32 ∨ (Rect.unit (s := S3200x128) (fun _ => 0) (fun a => (Pipeline.Clip.of (cc3_transform_1 i a) (S3200x128.size a) (S62500x128.size a)).extent (S3200x128.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hstart3_6 : ∀ (i : grid3.Coords) a, cc3_transform_6 i a * S3200x128.size a < S62500x128.size a
  hwx3_6 : ∀ i : grid3.Coords, EltTy.bits .f32 = 32 ∨ (Rect.unit (s := S62500x128) (fun a => cc3_transform_6 i a * S3200x128.size a) (fun a => (Pipeline.Clip.of (cc3_transform_6 i a) (S3200x128.size a) (S62500x128.size a)).extent (S3200x128.size a)) fun a => Pipeline.Clip.inb (Pipeline.Clip.ok_of (hstart3_6 i a))).WholeWords (EltTy.packing .f32)
  hwxs3_6 : ∀ i : grid3.Coords, EltTy.bits .f32 = 32 ∨ (Rect.unit (s := S3200x128) (fun _ => 0) (fun a => (Pipeline.Clip.of (cc3_transform_6 i a) (S3200x128.size a) (S62500x128.size a)).extent (S3200x128.size a)) fun a => (Nat.zero_add _).trans_le (Pipeline.Clip.extent_le (Pipeline.Clip.ok_of (hstart3_6 i a)))).WholeWords (EltTy.packing .f32)

variable [Facts₀]

def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def gather_S500000x16_S5000000x1_S5000000x16_1_0_n_n_0_1_116 : GatherDims S500000x16 S5000000x1 S5000000x16 where
  offsetDims := [1]
  collapsedSliceDims := [0]
  operandBatchingDims := []
  startIndicesBatchingDims := []
  startIndexMap := [0]
  indexVectorDim := 1
  sliceSizes := ![1, 16]
  wf := gather_S500000x16_S5000000x1_S5000000x16_1_0_n_n_0_1_116_wf
def scatter_S500000x16_S5000000x1_S5000000x16_1_0_0_1 : ScatterDims S500000x16 S5000000x1 S5000000x16 where
  updateWindowDims := [1]
  insertedWindowDims := [0]
  scatterDimsToOperandDims := [0]
  indexVectorDim := 1
  wf := scatter_S500000x16_S5000000x1_S5000000x16_1_0_0_1_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpecClip (Memref.whole main_v27) S3200x128.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v28) S3200x128.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpec (Memref.whole main_v32) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpecClip (Memref.whole main_v33_0) S3200x128.size cc2_transform_3 reads2_3 true false 2 stage2_3 sem2_3
    hrank2 hreads2_3 hstart2_3 nbuf2_3 (Memref.isWhole_whole _) hwx2_3 hwxs2_3 hstage2_3

abbrev win2_4 : Pipeline.Window sig grid2 :=
  Pipeline.Window.ofSpec (Memref.whole main_v33_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpecClip (Memref.whole main_v60) S3200x128.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_v33_0) S3200x128.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpec (Memref.whole main_v47) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpecClip (Memref.whole main_v61) S3200x128.size cc3_transform_6 reads3_6 true false 2 stage3_6 sem3_6
    hrank3 hreads3_6 hstart3_6 nbuf3_6 (Memref.isWhole_whole _) hwx3_6 hwxs3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S500000x16 : Shape := ⟨2, ![500000, 16]⟩
abbrev S2x5000000 : Shape := ⟨2, ![2, 5000000]⟩
abbrev S5000000x16 : Shape := ⟨2, ![5000000, 16]⟩
abbrev S16x16 : Shape := ⟨2, ![16, 16]⟩
abbrev S16 : Shape := ⟨1, ![16]⟩
abbrev S1x5000000 : Shape := ⟨2, ![1, 5000000]⟩
abbrev S5000000 : Shape := ⟨1, ![5000000]⟩
abbrev S1x16 : Shape := ⟨2, ![1, 16]⟩
abbrev S_ : Shape := ⟨0, ![]⟩
abbrev S5000000x1 : Shape := ⟨2, ![5000000, 1]⟩

abbrev nBuf : Space → Nat
  | .hbm => 116
  | .vmem => 0
  | .smem => 0
  | _ => 0

abbrev bufTy : (tb : Table) → Fin (tcTables nBuf tb) → BufTy
  | .hbm, ⟨0, _⟩ => ⟨S500000x16, .f32⟩
  | .hbm, ⟨1, _⟩ => ⟨S2x5000000, .i32⟩
  | .hbm, ⟨2, _⟩ => ⟨S5000000x16, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x16, .f32⟩
  | .hbm, ⟨10, _⟩ => ⟨S16x16, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S1x5000000, .i32⟩
  | .hbm, ⟨16, _⟩ => ⟨S5000000, .i32⟩
  | .hbm, ⟨17, _⟩ => ⟨S1x5000000, .i32⟩
  | .hbm, ⟨18, _⟩ => ⟨S5000000, .i32⟩
  | .hbm, ⟨19, _⟩ => ⟨S500000x16, .f32⟩
  | .hbm, ⟨20, _⟩ => ⟨S1x16, .f32⟩
  | .hbm, ⟨21, _⟩ => ⟨S500000x16, .f32⟩
  | .hbm, ⟨22, _⟩ => ⟨S500000x16, .f32⟩
  | .hbm, ⟨23, _⟩ => ⟨S500000x16, .f32⟩
  | .hbm, ⟨24, _⟩ => ⟨S1x16, .f32⟩
  | .hbm, ⟨25, _⟩ => ⟨S500000x16, .f32⟩
  | .hbm, ⟨26, _⟩ => ⟨S500000x16, .f32⟩
  | .hbm, ⟨27, _⟩ => ⟨S500000x16, .f32⟩
  | .hbm, ⟨28, _⟩ => ⟨S1x16, .f32⟩
  | .hbm, ⟨29, _⟩ => ⟨S500000x16, .f32⟩
  | .hbm, ⟨30, _⟩ => ⟨S500000x16, .f32⟩
  | .hbm, ⟨31, _⟩ => ⟨S5000000x16, .f32⟩
  | .hbm, ⟨32, _⟩ => ⟨S_, .i32⟩
  | .hbm, ⟨33, _⟩ => ⟨S5000000, .i32⟩
  | .hbm, ⟨34, _⟩ => ⟨S5000000, .i1⟩
  | .hbm, ⟨35, _⟩ => ⟨S_, .i32⟩
  | .hbm, ⟨36, _⟩ => ⟨S5000000, .i32⟩
  | .hbm, ⟨37, _⟩ => ⟨S5000000, .i32⟩
  | .hbm, ⟨38, _⟩ => ⟨S5000000, .i32⟩
  | .hbm, ⟨39, _⟩ => ⟨S5000000x1, .i32⟩
  | .hbm, ⟨40, _⟩ => ⟨S5000000x16, .f32⟩
  | .hbm, ⟨41, _⟩ => ⟨S5000000x16, .f32⟩
  | .hbm, ⟨42, _⟩ => ⟨S_, .i32⟩
  | .hbm, ⟨43, _⟩ => ⟨S5000000, .i32⟩
  | .hbm, ⟨44, _⟩ => ⟨S5000000, .i1⟩
  | .hbm, ⟨45, _⟩ => ⟨S_, .i32⟩
  | .hbm, ⟨46, _⟩ => ⟨S5000000, .i32⟩
  | .hbm, ⟨47, _⟩ => ⟨S5000000, .i32⟩
  | .hbm, ⟨48, _⟩ => ⟨S5000000, .i32⟩
  | .hbm, ⟨49, _⟩ => ⟨S5000000x1, .i32⟩
  | .hbm, ⟨50, _⟩ => ⟨S5000000x16, .f32⟩
  | .hbm, ⟨51, _⟩ => ⟨S5000000x16, .f32⟩
  | .hbm, ⟨52, _⟩ => ⟨S5000000x16, .f32⟩
  | .hbm, ⟨53, _⟩ => ⟨S5000000x16, .f32⟩
  | .hbm, ⟨54, _⟩ => ⟨S_, .f32⟩
  | .hbm, ⟨55, _⟩ => ⟨S5000000x16, .f32⟩
  | .hbm, ⟨56, _⟩ => ⟨S5000000x16, .f32⟩
  | .hbm, ⟨57, _⟩ => ⟨S_, .f32⟩
  | .hbm, ⟨58, _⟩ => ⟨S5000000x16, .f32⟩
  | .hbm, ⟨59, _⟩ => ⟨S5000000x16, .f32⟩
  | .hbm, ⟨60, _⟩ => ⟨S_, .i32⟩
  | .hbm, ⟨61, _⟩ => ⟨S5000000, .i32⟩
  | .hbm, ⟨62, _⟩ => ⟨S5000000, .i1⟩
  | .hbm, ⟨63, _⟩ => ⟨S_, .i32⟩
  | .hbm, ⟨64, _⟩ => ⟨S5000000, .i32⟩
  | .hbm, ⟨65, _⟩ => ⟨S5000000, .i32⟩
  | .hbm, ⟨66, _⟩ => ⟨S5000000, .i32⟩
  | .hbm, ⟨67, _⟩ => ⟨S5000000x1, .i32⟩
  | .hbm, ⟨68, _⟩ => ⟨S5000000x16, .f32⟩
  | .hbm, ⟨69, _⟩ => ⟨S5000000x16, .f32⟩
  | .hbm, ⟨70, _⟩ => ⟨S_, .f32⟩
  | .hbm, ⟨71, _⟩ => ⟨S500000x16, .f32⟩
  | .hbm, ⟨72, _⟩ => ⟨S5000000x1, .i32⟩
  | .hbm, ⟨73, _⟩ => ⟨S500000x16, .f32⟩
  | .hbm, ⟨74, _⟩ => ⟨S500000x16, .f32⟩
  | .hbm, ⟨75, _⟩ => ⟨S1x16, .f32⟩
  | .hbm, ⟨76, _⟩ => ⟨S500000x16, .f32⟩
  | .hbm, ⟨77, _⟩ => ⟨S500000x16, .f32⟩
  | .hbm, ⟨78, _⟩ => ⟨S500000x16, .f32⟩
  | .hbm, ⟨79, _⟩ => ⟨S1x16, .f32⟩
  | .hbm, ⟨80, _⟩ => ⟨S500000x16, .f32⟩
  | .hbm, ⟨81, _⟩ => ⟨S500000x16, .f32⟩
  | .hbm, ⟨82, _⟩ => ⟨S_, .f32⟩
  | .hbm, ⟨83, _⟩ => ⟨S16, .f32⟩
  | .hbm, ⟨84, _⟩ => ⟨S_, .f32⟩
  | .hbm, ⟨85, _⟩ => ⟨S16, .f32⟩
  | .hbm, ⟨86, _⟩ => ⟨S16, .f32⟩
  | .hbm, ⟨87, _⟩ => ⟨S1x16, .f32⟩
  | .hbm, ⟨88, _⟩ => ⟨S500000x16, .f32⟩
  | .hbm, ⟨89, _⟩ => ⟨S500000x16, .f32⟩
  | .hbm, ⟨90, _⟩ => ⟨S500000x16, .f32⟩
  | .hbm, ⟨91, _⟩ => ⟨S_, .f32⟩
  | .hbm, ⟨92, _⟩ => ⟨S16, .f32⟩
  | .hbm, ⟨93, _⟩ => ⟨S_, .f32⟩
  | .hbm, ⟨94, _⟩ => ⟨S16, .f32⟩
  | .hbm, ⟨95, _⟩ => ⟨S16, .f32⟩
  | .hbm, ⟨96, _⟩ => ⟨S1x16, .f32⟩
  | .hbm, ⟨97, _⟩ => ⟨S500000x16, .f32⟩
  | .hbm, ⟨98, _⟩ => ⟨S500000x16, .f32⟩
  | .hbm, ⟨99, _⟩ => ⟨S_, .f32⟩
  | .hbm, ⟨100, _⟩ => ⟨S16, .f32⟩
  | .hbm, ⟨101, _⟩ => ⟨S16, .f32⟩
  | .hbm, ⟨102, _⟩ => ⟨S16, .f32⟩
  | .hbm, ⟨103, _⟩ => ⟨S1x16, .f32⟩
  | .hbm, ⟨104, _⟩ => ⟨S500000x16, .f32⟩
  | .hbm, ⟨105, _⟩ => ⟨S500000x16, .f32⟩
  | .hbm, ⟨106, _⟩ => ⟨S1x16, .f32⟩
  | .hbm, ⟨107, _⟩ => ⟨S500000x16, .f32⟩
  | .hbm, ⟨108, _⟩ => ⟨S500000x16, .f32⟩
  | .hbm, ⟨109, _⟩ => ⟨S1x16, .f32⟩
  | .hbm, ⟨110, _⟩ => ⟨S500000x16, .f32⟩
  | .hbm, ⟨111, _⟩ => ⟨S500000x16, .f32⟩
  | .hbm, ⟨112, _⟩ => ⟨S_, .f32⟩
  | .hbm, ⟨113, _⟩ => ⟨S500000x16, .f32⟩
  | .hbm, ⟨114, _⟩ => ⟨S500000x16, .f32⟩
  | .hbm, ⟨115, _⟩ => ⟨S500000x16, .f32⟩
  | _, _ => ⟨S500000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩
abbrev main_c_4 : Ref sig .tc := ⟨.hbm, 60, rfl⟩
abbrev main_v39 : Ref sig .tc := ⟨.hbm, 61, rfl⟩
abbrev main_v40 : Ref sig .tc := ⟨.hbm, 62, rfl⟩
abbrev main_c_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_7 : Ref sig .tc := ⟨.hbm, 82, rfl⟩
abbrev main_v58 : Ref sig .tc := ⟨.hbm, 83, rfl⟩
abbrev main_cst_8 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_9 : Ref sig .tc := ⟨.hbm, 91, rfl⟩
abbrev main_v65 : Ref sig .tc := ⟨.hbm, 92, rfl⟩
abbrev main_cst_10 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_11 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_call0_cst : Ref sig .tc := ⟨.hbm, 112, rfl⟩
abbrev main_call0_v0 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S_S5000000 : S_.BroadcastsInDim S5000000 (![] : Fin 0 → Fin S5000000.rank)
  bcast_S5000000_S5000000x1_0 : S5000000.BroadcastsInDim S5000000x1 (![0] : Fin 1 → Fin S5000000x1.rank)
  bcast_S_S5000000x16 : S_.BroadcastsInDim S5000000x16 (![] : Fin 0 → Fin S5000000x16.rank)
  bcast_S_S500000x16 : S_.BroadcastsInDim S500000x16 (![] : Fin 0 → Fin S500000x16.rank)
  reducesTo_S500000x16_S16_d0 : S500000x16.ReducesTo [0] S16
  h_S_ : 0 < S_.numel
  bcast_S_S16 : S_.BroadcastsInDim S16 (![] : Fin 0 → Fin S16.rank)
  dot_S500000x16_S16x16_S500000x16_1_0_0_1_n_n_wf : DotDims.WF S500000x16 S16x16 S500000x16 [1] [0] [0] [1] [] []
  dot_S5000000x16_S16x16_S5000000x16_1_0_0_1_n_n_wf : DotDims.WF S5000000x16 S16x16 S5000000x16 [1] [0] [0] [1] [] []
  gather_S500000x16_S5000000x1_S5000000x16_1_0_n_n_0_1_116_wf : GatherDims.WF S500000x16 S5000000x1 S5000000x16 [1] [0] [] [0] [] 1 ![1, 16]
  scatter_S500000x16_S5000000x1_S5000000x16_1_0_0_1_wf : ScatterDims.WF S500000x16 S5000000x1 S5000000x16 [1] [0] [0] 1

variable [Facts₀]

def dot_S500000x16_S16x16_S500000x16_1_0_0_1_n_n : DotDims S500000x16 S16x16 S500000x16 where
  lhsContracting := [1]
  rhsContracting := [0]
  lhsNonContracting := [0]
  rhsNonContracting := [1]
  lhsBatch := []
  rhsBatch := []
  wf := dot_S500000x16_S16x16_S500000x16_1_0_0_1_n_n_wf
def dot_S5000000x16_S16x16_S5000000x16_1_0_0_1_n_n : DotDims S5000000x16 S16x16 S5000000x16 where
  lhsContracting := [1]
  rhsContracting := [0]
  lhsNonContracting := [0]
  rhsNonContracting := [1]
  lhsBatch := []
  rhsBatch := []
  wf := dot_S5000000x16_S16x16_S5000000x16_1_0_0_1_n_n_wf
def gather_S500000x16_S5000000x1_S5000000x16_1_0_n_n_0_1_116 : GatherDims S500000x16 S5000000x1 S5000000x16 where
  offsetDims := [1]
  collapsedSliceDims := [0]
  operandBatchingDims := []
  startIndicesBatchingDims := []
  startIndexMap := [0]
  indexVectorDim := 1
  sliceSizes := ![1, 16]
  wf := gather_S500000x16_S5000000x1_S5000000x16_1_0_n_n_0_1_116_wf
def scatter_S500000x16_S5000000x1_S5000000x16_1_0_0_1 : ScatterDims S500000x16 S5000000x1 S5000000x16 where
  updateWindowDims := [1]
  insertedWindowDims := [0]
  scatterDimsToOperandDims := [0]
  indexVectorDim := 1
  wf := scatter_S500000x16_S5000000x1_S5000000x16_1_0_0_1_wf

class Facts : Prop extends Facts₀ where

variable [Facts]
-- ==== Proof.KI.Reg0.lean ====
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x16 := Rect.unit (s := S5000x16) ![0, 0] S5000x16.size inb_S5000x16_S5000x16_0_0
abbrev r0_1 : Rect S16x64 := Rect.unit (s := S16x64) ![0, 0] S16x64.size inb_S16x64_S16x64_0_0
abbrev r0_2 : Rect S64 := Rect.unit (s := S64) ![0] S64.size inb_S64_S64_0
abbrev r0_3 : Rect S5000x64 := Rect.unit (s := S5000x64) ![0, 0] S5000x64.size inb_S5000x64_S5000x64_0_0

def out0_3 (x0 : Vec F S5000x16 .f32) (x1 : Vec F S16x64 .f32) (x2 : Vec F S64 .f32) : Vec F S5000x64 .f32 :=
  View.canon [⟨r0_3, k0_pay1 (View.ld x0 r0_0) (View.ld x1 r0_1) (View.ld x2 r0_2)⟩]

theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

set_option maxHeartbeats 1000000 in

theorem sound_kernel0 (c : Dev nD) (E : Set ℕ) (i : grid0.Coords) (arg1 : Memref sig .tc .vmem S5000x16 .f32) (harg1 : arg1.IsWhole) (arg2 : Memref sig .tc .vmem S16x64 .f32) (harg2 : arg2.IsWhole) (arg3 : Memref sig .tc .vmem S64 .f32) (harg3 : arg3.IsWhole) (arg4 : Memref sig .tc .vmem S5000x64 .f32) (harg4 : arg4.IsWhole)
    (x0 : Vec F S5000x16 .f32) (x1 : Vec F S16x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0_exact (c : Dev nD) : BodyObligation (dat0 (F := F) V c) (defs₀ (F := F)) Variants.none () Set.univ := fun t => by
  rw [bigSep_W0, bigSep_W0]
  exact sound_body0 V c t

theorem body_obligation0 (c : Dev nD) :
    BodyObligationLoose (dat0 (F := F) V c) (defs₀ (F := F)) Variants.none () Set.univ :=
  (body_obligation0_exact V c).loose
end

end Cert.KernelIdeal.Fr

end
-- ==== Proof.KI.Reg1.lean ====
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x16 := Rect.unit (s := S10000x16) ![0, 0] S10000x16.size inb_S10000x16_S10000x16_0_0
abbrev r1_1 : Rect S16x16 := Rect.unit (s := S16x16) ![0, 0] S16x16.size inb_S16x16_S16x16_0_0
abbrev r1_2 : Rect S10000x16 := Rect.unit (s := S10000x16) ![0, 0] S10000x16.size inb_S10000x16_S10000x16_0_0

def out1_2 (x0 : Vec F S10000x16 .f32) (x1 : Vec F S16x16 .f32) : Vec F S10000x16 .f32 :=
  View.canon [⟨r1_2, k1_pay1 (View.ld x0 r1_0) (View.ld x1 r1_1)⟩]

theorem cover1_2 (p0 : Vec F S10000x16 .f32) (y : S10000x16.Idx) :
    ∃ pc ∈ ([⟨r1_2, p0⟩] : List (View.Piece (Elt F) S10000x16 .f32)), y ∈ pc.1.set :=
  View.cover_of_tiled [⟨r1_2, p0⟩] S10000x16.size (by rfl) y

set_option maxHeartbeats 1000000 in

theorem sound_kernel1 (c : Dev nD) (E : Set ℕ) (i : grid1.Coords) (arg1 : Memref sig .tc .vmem S10000x16 .f32) (harg1 : arg1.IsWhole) (arg2 : Memref sig .tc .vmem S16x16 .f32) (harg2 : arg2.IsWhole) (arg3 : Memref sig .tc .vmem S10000x16 .f32) (harg3 : arg3.IsWhole)
    (x0 : Vec F S10000x16 .f32) (x1 : Vec F S16x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__edge_linear_kernel i arg1 harg1 arg2 harg2 arg3 harg3) K := by
  simp only [cc1__edge_linear_kernel_eq_skeleton]; unfold cc1__edge_linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1_exact (c : Dev nD) : BodyObligation (dat1 (F := F) V c) (defs₀ (F := F)) Variants.none () Set.univ := fun t => by
  rw [bigSep_W1, bigSep_W1]
  exact sound_body1 V c t

theorem body_obligation1 (c : Dev nD) :
    BodyObligationLoose (dat1 (F := F) V c) (defs₀ (F := F)) Variants.none () Set.univ :=
  (body_obligation1_exact V c).loose
end

end Cert.KernelIdeal.Fr

end
-- ==== Proof.KI.Reg2.lean ====
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem idx0 : (![0, 0] : Fin 2 → ℕ) = fun _ => 0 := funext fun a => by fin_cases a <;> rfl

theorem readAt_box_unread {κ : Kind} {sp : Space} {s : Shape} {e : EltTy} {m : Memref sig κ sp s e} (h : m.IsWhole)
    (X : s.Idx → Elt F e) {off : Fin s.rank → ℕ} (ho : off = fun _ => 0) (inb : ∀ a, off a + s.size a ≤ s.size a) :
    View.readAt (Elt F) m.view (Rect.unit off s.size inb).toLoadRect (h.unread X) = X := by
  subst ho
  funext x
  refine (congrFun (h.read_unread X) _).trans (congrArg X ?_)
  funext a; apply Fin.ext
  show 0 + 1 * (x a).val = (x a).val
  omega

theorem read_writes_box {κ : Kind} {sp : Space} {s : Shape} {e : EltTy} (v : View sig κ sp s e) (f : v.ty.Contents (Elt F))
    {off : Fin s.rank → ℕ} (ho : off = fun _ => 0) (inb : ∀ a, off a + s.size a ≤ s.size a)
    (w : (Rect.unit off s.size inb).shape.Idx → Elt F e) (L : List (View.Piece (Elt F) s e)) :
    v.read (Elt F) (v.writes (Elt F) f (⟨Rect.unit off s.size inb, w⟩ :: L)) = w := by
  subst ho
  funext y
  have hy : (Rect.unit (s := s) (fun _ => 0) s.size inb).emb y = y :=
    funext fun a => Fin.ext (by show 0 + 1 * (y a).val = (y a).val; omega)
  exact (congrArg (v.read (Elt F) (v.writes (Elt F) f ((⟨Rect.unit (fun _ => 0) s.size inb, w⟩ : View.Piece (Elt F) s e) :: L))) hy.symm).trans
    (View.read_writes_cons_emb v f (Rect.unit (fun _ => 0) s.size inb) w L y)

theorem readCov_box {κ : Kind} {sp : Space} {s : Shape} {e : EltTy} (v : View sig κ sp s e)
    {off off' : Fin s.rank → ℕ} (ho : off = fun _ => 0) (ho' : off' = fun _ => 0) (inb : ∀ a, off a + s.size a ≤ s.size a)
    (inb' : ∀ a, off' a + s.size a ≤ s.size a)
    (w : (Rect.unit off s.size inb).shape.Idx → Elt F e) (L : List (View.Piece (Elt F) s e)) :
    v.readCov (⟨Rect.unit off s.size inb, w⟩ :: L) (Rect.unit off' s.size inb').toLoadRect = w := by
  subst ho'
  funext x
  unfold View.readCov
  rw [View.readAt_apply]
  refine (congrFun (read_writes_box v _ ho inb w L) _).trans (congrArg w ?_)
  funext a; apply Fin.ext
  show 0 + 1 * (x a).val = (x a).val
  omega

abbrev cond2 (i : grid2.Coords) : Prop := (Scalar.cmpi .ne (Scalar.extui (Scalar.cmpi .eq (BitVec.ofNat 32 (i 0).val) 0#32)) 0#32) = 1#1

theorem hcond2 : ∀ t : Fin cfg2.N, cond2 (grid2.coords t) ↔ t.val = 0 :=
  (by decide +kernel : ∀ t : Fin grid2.N, cond2 (grid2.coords t) ↔ t.val = 0)

set_option maxHeartbeats 1000000 in

theorem run2_A (c : Dev nD) (i : grid2.Coords)
    (arg1 : Memref sig .tc .vmem S3200x128 .f32) (harg1 : arg1.IsWhole) (arg2 : Memref sig .tc .vmem S3200x128 .f32) (harg2 : arg2.IsWhole)
    (arg3 : Memref sig .tc .vmem S1x128 .f32) (harg3 : arg3.IsWhole) (arg4 : Memref sig .tc .vmem S3200x128 .f32) (harg4 : arg4.IsWhole)
    (arg5 : Memref sig .tc .vmem S1x128 .f32) (harg5 : arg5.IsWhole) (arg6 : Memref sig .tc .vmem S1x128 .f32) (harg6 : arg6.IsWhole)
    (hc0 : cond2 i)
    (x0 x1 : Vec F S3200x128 .f32) (x2 : Vec F S1x128 .f32) (E : Set ℕ) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                 ∗ owns (c : Thread nD τ) arg4 fullShare (k2_pay3 x0 x1 x2)
                 ∗ owns (c : Thread nD τ) arg5 fullShare (k2_pay5 i x0 x1 x2 k2_pay1)
                 ∗ owns (c : Thread nD τ) arg6 fullShare (k2_pay6 i x0 x1 x2 k2_pay2)) -∗ K ⟨⟩))
          ⊢ wp frame (wpE (defs₀ (F := F)) Variants.none c none) E (cc2__kernel i arg1 harg1 arg2 harg2 arg3 harg3 arg4 harg4 arg5 harg5 arg6 harg6) K := by
  simp only [cc2__kernel_eq_skeleton]; unfold cc2__kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2

  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (read_writes_box _ _ idx0 _ _ _).trans ?_
    rw [readAt_box_unread harg1 x0 idx0, readAt_box_unread harg2 x1 idx0, readAt_box_unread harg3 x2 idx0]
  isplitl [H4]
  · iexists _; isplitr
    swap; · iexact H4
    ipureintro
    refine (read_writes_box _ _ idx0 _ _ _).trans ?_
    rw [readAt_box_unread harg1 x0 idx0, readAt_box_unread harg2 x1 idx0, readAt_box_unread harg3 x2 idx0]
    refine congrArg (k2_pay5 i x0 x1 x2) ?_
    unfold run2_A.sl.v21 run2_A.sl.H4_1
    exact readCov_box _ idx0 idx0 _ _ _ _
  · iexists _; isplitr
    swap; · iexact H5
    ipureintro
    refine (read_writes_box _ _ idx0 _ _ _).trans ?_
    rw [readAt_box_unread harg1 x0 idx0, readAt_box_unread harg2 x1 idx0, readAt_box_unread harg3 x2 idx0]
    refine congrArg (k2_pay6 i x0 x1 x2) ?_
    unfold run2_A.sl.v27 run2_A.sl.H5_1
    exact readCov_box _ idx0 idx0 _ _ _ _

set_option maxHeartbeats 1000000 in

theorem run2_B (c : Dev nD) (i : grid2.Coords)
    (arg1 : Memref sig .tc .vmem S3200x128 .f32) (harg1 : arg1.IsWhole) (arg2 : Memref sig .tc .vmem S3200x128 .f32) (harg2 : arg2.IsWhole)
    (arg3 : Memref sig .tc .vmem S1x128 .f32) (harg3 : arg3.IsWhole) (arg4 : Memref sig .tc .vmem S3200x128 .f32) (harg4 : arg4.IsWhole)
    (arg5 : Memref sig .tc .vmem S1x128 .f32) (harg5 : arg5.IsWhole) (arg6 : Memref sig .tc .vmem S1x128 .f32) (harg6 : arg6.IsWhole)
    (hc0 : ¬cond2 i)
    (x0 x1 : Vec F S3200x128 .f32) (x2 : Vec F S1x128 .f32) (xs xq : Vec F S1x128 .f32) (E : Set ℕ) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs ∗ owns (c : Thread nD τ) arg6 fullShare xq
            ∗ (iprop(owns (c : Thread nD τ) arg1 fullShare x0 ∗ owns (c : Thread nD τ) arg2 fullShare x1 ∗ owns (c : Thread nD τ) arg3 fullShare x2
                 ∗ owns (c : Thread nD τ) arg4 fullShare (k2_pay3 x0 x1 x2)
                 ∗ owns (c : Thread nD τ) arg5 fullShare (k2_pay5 i x0 x1 x2 xs)
                 ∗ owns (c : Thread nD τ) arg6 fullShare (k2_pay6 i x0 x1 x2 xq)) -∗ K ⟨⟩))
          ⊢ wp frame (wpE (defs₀ (F := F)) Variants.none c none) E (cc2__kernel i arg1 harg1 arg2 harg2 arg3 harg3 arg4 harg4 arg5 harg5 arg6 harg6) K := by
  simp only [cc2__kernel_eq_skeleton]; unfold cc2__kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg1.eq_unread hf0; obtain rfl := harg2.eq_unread hf1; obtain rfl := harg3.eq_unread hf2
  obtain rfl := harg5.eq_unread hf4; obtain rfl := harg6.eq_unread hf5
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (read_writes_box _ _ idx0 _ _ _).trans ?_
    rw [readAt_box_unread harg1 x0 idx0, readAt_box_unread harg2 x1 idx0, readAt_box_unread harg3 x2 idx0]
  isplitl [H4]
  · iexists _; isplitr
    swap; · iexact H4
    ipureintro
    refine (read_writes_box _ _ idx0 _ _ _).trans ?_
    rw [readAt_box_unread harg1 x0 idx0, readAt_box_unread harg2 x1 idx0, readAt_box_unread harg3 x2 idx0]
    rw [readAt_box_unread harg5 xs idx0]
  · iexists _; isplitr
    swap; · iexact H5
    ipureintro
    refine (read_writes_box _ _ idx0 _ _ _).trans ?_
    rw [readAt_box_unread harg1 x0 idx0, readAt_box_unread harg2 x1 idx0, readAt_box_unread harg3 x2 idx0]
    rw [readAt_box_unread harg6 xq idx0]

theorem shapeCast_same {s : Shape} {α : Type} (v : s.Idx → α) (h : s.ShapeCasts s) : shapeCast s v h = v :=
  funext fun i => congrArg v (Shape.reshapeEquiv_self _ i)

theorem k2_pay3_apply (X X' : Vec F S3200x128 .f32) (r : Vec F S1x128 .f32) (j : S3200x128.Idx) :
    k2_pay3 X X' r j = FloatOps.addf (FloatOps.addf (X j) (X' j)) (broadcastTo S3200x128 r broadcasts_S1x128_S3200x128 j) := by
  unfold k2_pay3
  simp only [shapeCast_same]
  rfl

theorem k2_pay3_congr {X Y X' Y' : Vec F S3200x128 .f32} (r : Vec F S1x128 .f32) (j : S3200x128.Idx)
    (h : X j = Y j) (h' : X' j = Y' j) : k2_pay3 X X' r j = k2_pay3 Y Y' r j := by
  rw [k2_pay3_apply, k2_pay3_apply, h, h']

theorem mask_lt (a b : ℕ) (ha : a < 20) (hb : b < 3200)
    (hm : IntOp.cmpi .slt (IntOp.addi (Scalar.muli (BitVec.ofNat 32 a) 3200#32) (BitVec.ofNat 32 (0 * (![3200, 128] : Fin 2 → ℕ) 0 + b))) 62500#32 = (1 : BitVec 1)) :
    a * 3200 + b < 62500 := by
  have hx : (IntOp.addi (Scalar.muli (BitVec.ofNat 32 a) 3200#32) (BitVec.ofNat 32 (0 * (![3200, 128] : Fin 2 → ℕ) 0 + b))).toNat = a * 3200 + b := by
    unfold IntOp.addi Scalar.muli IntOp.muli
    simp only [BitVec.toNat_add, BitVec.toNat_mul, BitVec.toNat_ofNat, Matrix.cons_val_zero]
    omega
  generalize IntOp.addi (Scalar.muli (BitVec.ofNat 32 a) 3200#32) (BitVec.ofNat 32 (0 * (![3200, 128] : Fin 2 → ℕ) 0 + b)) = x at hm hx
  unfold IntOp.cmpi at hm
  dsimp only at hm
  have hs : BitVec.slt x 62500#32 = true := by
    cases hb' : BitVec.slt x 62500#32 with
    | true => rfl
    | false => rw [hb'] at hm; exact absurd hm (by decide)
  rw [BitVec.slt_iff_toInt_lt] at hs
  have hxi : x.toInt = ((a * 3200 + b : ℕ) : ℤ) := by
    rw [BitVec.toInt_eq_toNat_cond, hx, if_pos (by omega)]
  have h62 : (62500#32 : BitVec 32).toInt = 62500 := by decide
  rw [hxi, h62] at hs
  omega

/-- The masked block does not read its arguments on rows past the array's end. -/
theorem k2_pay4_congr (i : grid2.Coords) {X Y X' Y' : Vec F S3200x128 .f32} (r : Vec F S1x128 .f32)
    (h : ∀ j : S3200x128.Idx, (i 0).val * 3200 + (j 0).val < 62500 → X j = Y j ∧ X' j = Y' j) :
    k2_pay4 i X X' r = k2_pay4 i Y Y' r := by
  funext j
  unfold k2_pay4
  simp only [select, cmpi, addi, broadcast, iota, List.foldl]
  unfold Scalar.select
  by_cases hm : IntOp.cmpi .slt (IntOp.addi (Scalar.muli (BitVec.ofNat 32 (i 0).val) 3200#32) (BitVec.ofNat 32 (0 * (![3200, 128] : Fin 2 → ℕ) 0 + (j 0).val))) 62500#32 = (1 : BitVec 1)
  · have hlt := mask_lt (i 0).val (j 0).val (i 0).isLt (j 0).isLt hm
    rw [if_pos hm, if_pos hm, k2_pay3_congr r j (h j hlt).1 (h j hlt).2]
  · rw [if_neg hm, if_neg hm]

theorem k2_pay5_congr (i : grid2.Coords) {X Y X' Y' : Vec F S3200x128 .f32} (r acc : Vec F S1x128 .f32)
    (h : ∀ j : S3200x128.Idx, (i 0).val * 3200 + (j 0).val < 62500 → X j = Y j ∧ X' j = Y' j) :
    k2_pay5 i X X' r acc = k2_pay5 i Y Y' r acc := by
  unfold k2_pay5; rw [k2_pay4_congr i r h]

theorem k2_pay6_congr (i : grid2.Coords) {X Y X' Y' : Vec F S3200x128 .f32} (r acc : Vec F S1x128 .f32)
    (h : ∀ j : S3200x128.Idx, (i 0).val * 3200 + (j 0).val < 62500 → X j = Y j ∧ X' j = Y' j) :
    k2_pay6 i X X' r acc = k2_pay6 i Y Y' r acc := by
  unfold k2_pay6; rw [k2_pay4_congr i r h]

theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

theorem lt_extent_of {ix k d : ℕ} {cl : Pipeline.Clip} (h : Pipeline.Clip.Ok ix k d cl) {j : ℕ} (hj : j < k)
    (hd : ix * k + j < d) : j < cl.extent k := by
  cases cl with
  | none => exact hj
  | some n => have := h.2.2; show j < n; omega

theorem toNat_coord (i : grid2.Coords) : (BitVec.ofNat 32 (i 0).val).toNat = (i 0).val := by
  have := (i 0).isLt
  rw [BitVec.toNat_ofNat]
  exact Nat.mod_eq_of_lt (lt_trans this (by decide))

theorem moved2_0 (i : grid2.Coords) (j : S3200x128.Idx) (h : (i 0).val * 3200 + (j 0).val < 62500) :
    (cfg2.win 0).moved i j = true := by
  rw [Window.moved_iff]
  intro a
  refine lt_extent_of ((cfg2.win 0).hclip i a) (j a).isLt ?_
  match a with
  | ⟨0, _⟩ =>
    show (BitVec.ofNat 32 (i 0).val).toNat * 3200 + (j 0).val < 62500
    rw [toNat_coord]; exact h
  | ⟨1, _⟩ =>
    show (0#32 : BitVec 32).toNat * 128 + (j 1).val < 128
    have h1 : (j 1).val < 128 := (j 1).isLt
    show 0 * 128 + (j 1).val < 128
    omega

theorem moved2_1 (i : grid2.Coords) (j : S3200x128.Idx) (h : (i 0).val * 3200 + (j 0).val < 62500) :
    (cfg2.win 1).moved i j = true := by
  rw [Window.moved_iff]
  intro a
  refine lt_extent_of ((cfg2.win 1).hclip i a) (j a).isLt ?_
  match a with
  | ⟨0, _⟩ =>
    show (BitVec.ofNat 32 (i 0).val).toNat * 3200 + (j 0).val < 62500
    rw [toNat_coord]; exact h
  | ⟨1, _⟩ =>
    show (0#32 : BitVec 32).toNat * 128 + (j 1).val < 128
    have h1 : (j 1).val < 128 := (j 1).isLt
    show 0 * 128 + (j 1).val < 128
    omega

theorem xsize2_3_0 (i : grid2.Coords) (a : Fin 2) : (cfg2.win 3).xsize i a = (cfg2.win 0).xsize i a := rfl
theorem xsize2_3_1 (i : grid2.Coords) (a : Fin 2) : (cfg2.win 3).xsize i a = (cfg2.win 1).xsize i a := rfl

theorem moved2_0_xinj3 (i : grid2.Coords) (j : ((cfg2.win 3).xblock i).Idx) : (cfg2.win 0).moved i ((cfg2.win 3).xinj i j) = true :=
  ((cfg2.win 0).moved_iff i _).mpr fun a => (xsize2_3_0 i a) ▸ (j a).isLt
theorem moved2_1_xinj3 (i : grid2.Coords) (j : ((cfg2.win 3).xblock i).Idx) : (cfg2.win 1).moved i ((cfg2.win 3).xinj i j) = true :=
  ((cfg2.win 1).moved_iff i _).mpr fun a => (xsize2_3_1 i a) ▸ (j a).isLt

def h2 (a b : Vec F S3200x128 .f32) (r : Vec F S1x128 .f32) : Vec F S3200x128 .f32 := k2_pay3 a b r

def sumStep (i : grid2.Coords) (a b : Vec F S3200x128 .f32) (r acc : Vec F S1x128 .f32) : Vec F S1x128 .f32 :=
  k2_pay5 i a b r acc

def sqStep (i : grid2.Coords) (a b : Vec F S3200x128 .f32) (r acc : Vec F S1x128 .f32) : Vec F S1x128 .f32 :=
  k2_pay6 i a b r acc

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def zb2_0 (c : Dev nD) (t : Fin cfg2.N) : Vec F S3200x128 .f32 :=
  (cfg2.win 0).fill (cfg2.grid.coords t) (fun _ => (Scalar.ofBits .f32 0#32 : F .f32)) (iblk2 V c 0 t)
def zb2_1 (c : Dev nD) (t : Fin cfg2.N) : Vec F S3200x128 .f32 :=
  (cfg2.win 1).fill (cfg2.grid.coords t) (fun _ => (Scalar.ofBits .f32 0#32 : F .f32)) (iblk2 V c 1 t)

def row2 (c : Dev nD) (t : Fin cfg2.N) : Vec F S1x128 .f32 := iblk2 V c 2 t

def accS (c : Dev nD) : (n : ℕ) → n < cfg2.N → Vec F S1x128 .f32
  | 0, hn => sumStep (grid2.coords ⟨0, hn⟩) (zb2_0 V c ⟨0, hn⟩) (zb2_1 V c ⟨0, hn⟩) (row2 V c ⟨0, hn⟩) k2_pay1
  | n + 1, hn => sumStep (grid2.coords ⟨n + 1, hn⟩) (zb2_0 V c ⟨n + 1, hn⟩) (zb2_1 V c ⟨n + 1, hn⟩) (row2 V c ⟨n + 1, hn⟩)
      (accS c n (Nat.lt_of_succ_lt hn))

def accQ (c : Dev nD) : (n : ℕ) → n < cfg2.N → Vec F S1x128 .f32
  | 0, hn => sqStep (grid2.coords ⟨0, hn⟩) (zb2_0 V c ⟨0, hn⟩) (zb2_1 V c ⟨0, hn⟩) (row2 V c ⟨0, hn⟩) k2_pay2
  | n + 1, hn => sqStep (grid2.coords ⟨n + 1, hn⟩) (zb2_0 V c ⟨n + 1, hn⟩) (zb2_1 V c ⟨n + 1, hn⟩) (row2 V c ⟨n + 1, hn⟩)
      (accQ c n (Nat.lt_of_succ_lt hn))

theorem accS_zero (c : Dev nD) (hn : 0 < cfg2.N) :
    accS V c 0 hn = sumStep (grid2.coords ⟨0, hn⟩) (zb2_0 V c ⟨0, hn⟩) (zb2_1 V c ⟨0, hn⟩) (row2 V c ⟨0, hn⟩) k2_pay1 := rfl
theorem accS_succ (c : Dev nD) (n : ℕ) (hn : n + 1 < cfg2.N) :
    accS V c (n + 1) hn = sumStep (grid2.coords ⟨n + 1, hn⟩) (zb2_0 V c ⟨n + 1, hn⟩) (zb2_1 V c ⟨n + 1, hn⟩) (row2 V c ⟨n + 1, hn⟩)
      (accS V c n (Nat.lt_of_succ_lt hn)) := rfl
theorem accQ_zero (c : Dev nD) (hn : 0 < cfg2.N) :
    accQ V c 0 hn = sqStep (grid2.coords ⟨0, hn⟩) (zb2_0 V c ⟨0, hn⟩) (zb2_1 V c ⟨0, hn⟩) (row2 V c ⟨0, hn⟩) k2_pay2 := rfl
theorem accQ_succ (c : Dev nD) (n : ℕ) (hn : n + 1 < cfg2.N) :
    accQ V c (n + 1) hn = sqStep (grid2.coords ⟨n + 1, hn⟩) (zb2_0 V c ⟨n + 1, hn⟩) (zb2_1 V c ⟨n + 1, hn⟩) (row2 V c ⟨n + 1, hn⟩)
      (accQ V c n (Nat.lt_of_succ_lt hn)) := rfl

theorem accS_first (c : Dev nD) (t : Fin cfg2.N) (h0 : t.val = 0) :
    accS V c t.val t.isLt = sumStep (grid2.coords t) (zb2_0 V c t) (zb2_1 V c t) (row2 V c t) k2_pay1 := by
  obtain ⟨n, hn⟩ := t
  cases n with
  | zero => rfl
  | succ n => exact absurd h0 (Nat.succ_ne_zero n)
theorem accQ_first (c : Dev nD) (t : Fin cfg2.N) (h0 : t.val = 0) :
    accQ V c t.val t.isLt = sqStep (grid2.coords t) (zb2_0 V c t) (zb2_1 V c t) (row2 V c t) k2_pay2 := by
  obtain ⟨n, hn⟩ := t
  cases n with
  | zero => rfl
  | succ n => exact absurd h0 (Nat.succ_ne_zero n)

theorem accS_later (c : Dev nD) (t : Fin cfg2.N) (h0 : t.val ≠ 0) :
    accS V c t.val t.isLt = sumStep (grid2.coords t) (zb2_0 V c t) (zb2_1 V c t) (row2 V c t)
      (accS V c (t.val - 1) (Nat.lt_of_le_of_lt (Nat.sub_le _ _) t.isLt)) := by
  obtain ⟨n, hn⟩ := t
  cases n with
  | zero => exact absurd rfl h0
  | succ n => rfl
theorem accQ_later (c : Dev nD) (t : Fin cfg2.N) (h0 : t.val ≠ 0) :
    accQ V c t.val t.isLt = sqStep (grid2.coords t) (zb2_0 V c t) (zb2_1 V c t) (row2 V c t)
      (accQ V c (t.val - 1) (Nat.lt_of_le_of_lt (Nat.sub_le _ _) t.isLt)) := by
  obtain ⟨n, hn⟩ := t
  cases n with
  | zero => exact absurd rfl h0
  | succ n => rfl

def dat2 (c : Dev nD) : Dat τ (Elt F) Unit ℕ (UR sig nD τ) ℕ cfg2 c where
  A w := V c (Pipeline.arrRef spec2 w)
  after w t := match w with
    | ⟨0, _⟩ => zb2_0 V c t
    | ⟨1, _⟩ => zb2_1 V c t
    | ⟨2, _⟩ => iblk2 V c 2 t
    | ⟨3, _⟩ => h2 (zb2_0 V c t) (zb2_1 V c t) (row2 V c t)
    | ⟨4, _⟩ => accS V c t.val t.isLt
    | ⟨5, _⟩ => accQ V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = zb2_0 V c t := by dsimp only [dat2]
theorem after2_1 (c : Dev nD) (t : Fin cfg2.N) : (dat2 V c).after 1 t = zb2_1 V c t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = h2 (zb2_0 V c t) (zb2_1 V c t) (row2 V c t) := by dsimp only [dat2]
theorem after2_4 (c : Dev nD) (t : Fin cfg2.N) : (dat2 V c).after 4 t = accS V c t.val t.isLt := by dsimp only [dat2]
theorem after2_5 (c : Dev nD) (t : Fin cfg2.N) : (dat2 V c).after 5 t = accQ V c t.val t.isLt := by dsimp only [dat2]

theorem before2_0 (c : Dev nD) (t : Fin cfg2.N) (d) :
    (dat2 V c).before 0 t d = (cfg2.win 0).fill (cfg2.grid.coords t) d (iblk2 V c 0 t) := by
  rw [Dat.before_fetched _ 0 t (fetch2_0 t)]
  unfold Dat.fetched Dat.blockOf iblk2; rw [A_eq2]
theorem before2_1 (c : Dev nD) (t : Fin cfg2.N) (d) :
    (dat2 V c).before 1 t d = (cfg2.win 1).fill (cfg2.grid.coords t) d (iblk2 V c 1 t) := by
  rw [Dat.before_fetched _ 1 t (fetch2_1 t)]
  unfold Dat.fetched Dat.blockOf iblk2; rw [A_eq2]

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = d :=
  (dat2 V c).before_out_reset 3 rfl t
    (by by_cases h0 : t.val = 0
        · exact .inl h0
        · exact .inr ⟨h0, flush2_3 _⟩) d

theorem before2_4_first (c : Dev nD) (t : Fin cfg2.N) (h0 : t.val = 0) (d) : (dat2 V c).before 4 t d = d :=
  (dat2 V c).before_out_reset 4 rfl t (.inl h0) d
theorem before2_5_first (c : Dev nD) (t : Fin cfg2.N) (h0 : t.val = 0) (d) : (dat2 V c).before 5 t d = d :=
  (dat2 V c).before_out_reset 5 rfl t (.inl h0) d

theorem before2_4_later (c : Dev nD) (t : Fin cfg2.N) (h0 : t.val ≠ 0) (d) :
    (dat2 V c).before 4 t d = accS V c (t.val - 1) (Nat.lt_of_le_of_lt (Nat.sub_le _ _) t.isLt) := by
  have hN : t.val < 20 := lt_of_lt_of_eq t.isLt (show cfg2.N = 20 from N_2)
  rw [Dat.before_out_kept _ 4 rfl t h0 (Bool.eq_false_iff.mpr fun h => by have := (flush2_4 _).mp h; dsimp only at this; omega)
    (fun _ => rfl) (fun _ _ => rfl)]
  dsimp only [dat2]
theorem before2_5_later (c : Dev nD) (t : Fin cfg2.N) (h0 : t.val ≠ 0) (d) :
    (dat2 V c).before 5 t d = accQ V c (t.val - 1) (Nat.lt_of_le_of_lt (Nat.sub_le _ _) t.isLt) := by
  have hN : t.val < 20 := lt_of_lt_of_eq t.isLt (show cfg2.N = 20 from N_2)
  rw [Dat.before_out_kept _ 5 rfl t h0 (Bool.eq_false_iff.mpr fun h => by have := (flush2_5 _).mp h; dsimp only at this; omega)
    (fun _ => rfl) (fun _ _ => rfl)]
  dsimp only [dat2]

theorem fills_agree (c : Dev nD) (t : Fin cfg2.N) (d0 : (cfg2.win 0).block.Idx → Elt F (cfg2.win 0).elt)
    (d1 : (cfg2.win 1).block.Idx → Elt F (cfg2.win 1).elt) (j : S3200x128.Idx)
    (h : (grid2.coords t 0).val * 3200 + (j 0).val < 62500) :
    (cfg2.win 0).fill (cfg2.grid.coords t) d0 (iblk2 V c 0 t) j = zb2_0 V c t j
      ∧ (cfg2.win 1).fill (cfg2.grid.coords t) d1 (iblk2 V c 1 t) j = zb2_1 V c t j := by
  unfold zb2_0 zb2_1
  exact ⟨fill_eq_of_moved _ _ _ _ _ (moved2_0 _ j h), fill_eq_of_moved _ _ _ _ _ (moved2_1 _ j h)⟩

theorem pay3_fill (c : Dev nD) (t : Fin cfg2.N) (d0 : (cfg2.win 0).block.Idx → Elt F (cfg2.win 0).elt)
    (d1 : (cfg2.win 1).block.Idx → Elt F (cfg2.win 1).elt) :
    (cfg2.win 3).fill (cfg2.grid.coords t)
        (k2_pay3 ((cfg2.win 0).fill (cfg2.grid.coords t) d0 (iblk2 V c 0 t)) ((cfg2.win 1).fill (cfg2.grid.coords t) d1 (iblk2 V c 1 t)) (row2 V c t))
        ((cfg2.win 3).cut (cfg2.grid.coords t) (h2 (zb2_0 V c t) (zb2_1 V c t) (row2 V c t)))
      = k2_pay3 ((cfg2.win 0).fill (cfg2.grid.coords t) d0 (iblk2 V c 0 t)) ((cfg2.win 1).fill (cfg2.grid.coords t) d1 (iblk2 V c 1 t)) (row2 V c t) := by
  refine (cfg2.win 3).fill_congr_cut _ ?_
  funext j
  unfold h2 zb2_0 zb2_1
  exact k2_pay3_congr _ _ (fill_eq_of_moved _ _ _ _ _ (moved2_0_xinj3 _ j)) (fill_eq_of_moved _ _ _ _ _ (moved2_1_xinj3 _ j))

theorem pay5_fill (c : Dev nD) (t : Fin cfg2.N) (d0 : (cfg2.win 0).block.Idx → Elt F (cfg2.win 0).elt)
    (d1 : (cfg2.win 1).block.Idx → Elt F (cfg2.win 1).elt) (acc : Vec F S1x128 .f32) :
    k2_pay5 (grid2.coords t) ((cfg2.win 0).fill (cfg2.grid.coords t) d0 (iblk2 V c 0 t)) ((cfg2.win 1).fill (cfg2.grid.coords t) d1 (iblk2 V c 1 t)) (row2 V c t) acc
      = sumStep (grid2.coords t) (zb2_0 V c t) (zb2_1 V c t) (row2 V c t) acc := by
  unfold sumStep
  exact k2_pay5_congr _ _ _ fun j h => fills_agree V c t d0 d1 j h
theorem pay6_fill (c : Dev nD) (t : Fin cfg2.N) (d0 : (cfg2.win 0).block.Idx → Elt F (cfg2.win 0).elt)
    (d1 : (cfg2.win 1).block.Idx → Elt F (cfg2.win 1).elt) (acc : Vec F S1x128 .f32) :
    k2_pay6 (grid2.coords t) ((cfg2.win 0).fill (cfg2.grid.coords t) d0 (iblk2 V c 0 t)) ((cfg2.win 1).fill (cfg2.grid.coords t) d1 (iblk2 V c 1 t)) (row2 V c t) acc
      = sqStep (grid2.coords t) (zb2_0 V c t) (zb2_1 V c t) (row2 V c t) acc := by
  unfold sqStep
  exact k2_pay6_congr _ _ _ fun j h => fills_agree V c t d0 d1 j h

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ (∃ d, owns (c : Thread nD τ) (st2_0 t) fullShare ((cfg2.win 0).fill (cfg2.grid.coords t) d ((cfg2.win 0).cut (cfg2.grid.coords t) ((dat2 V c).after 0 t))))
    ∗ (∃ d, owns (c : Thread nD τ) (st2_1 t) fullShare ((cfg2.win 1).fill (cfg2.grid.coords t) d ((cfg2.win 1).cut (cfg2.grid.coords t) ((dat2 V c).after 1 t))))
    ∗ owns (c : Thread nD τ) (st2_2 t) fullShare ((dat2 V c).after 2 t)
    ∗ (∃ d, owns (c : Thread nD τ) (st2_3 t) fullShare ((cfg2.win 3).fill (cfg2.grid.coords t) d ((cfg2.win 3).cut (cfg2.grid.coords t) ((dat2 V c).after 3 t))))
    ∗ owns (c : Thread nD τ) (st2_4 t) fullShare ((dat2 V c).after 4 t)
    ∗ owns (c : Thread nD τ) (st2_5 t) fullShare ((dat2 V c).after 5 t))

set_option maxHeartbeats 1000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  rw [show (cfg2.win 0).cut (cfg2.grid.coords t) (zb2_0 V c t) = iblk2 V c 0 t from (cfg2.win 0).cut_fill _ _ _,
    show (cfg2.win 1).cut (cfg2.grid.coords t) (zb2_1 V c t) = iblk2 V c 1 t from (cfg2.win 1).cut_fill _ _ _]
  by_cases h0 : t.val = 0
  · rw [accS_first V c t h0, accQ_first V c t h0]
    simp only [before2_4_first V c t h0, before2_5_first V c t h0]
    iintro ⟨HΦ, Ho, ⟨%d0, H0⟩, ⟨%d1, H1⟩, ⟨%d2, H2⟩, ⟨%d3, H3⟩, ⟨%d4, H4⟩, ⟨%d5, H5⟩⟩
    iapply (run2_A c (grid2.coords t) _ _ _ _ _ _ _ _ _ _ _ _ ((hcond2 t).mpr h0)
      ((cfg2.win 0).fill (cfg2.grid.coords t) d0 (iblk2 V c 0 t)) ((cfg2.win 1).fill (cfg2.grid.coords t) d1 (iblk2 V c 1 t))
      (row2 V c t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexists d0; iexact H0
    isplitl [H1]; · iexists d1; iexact H1
    isplitl [H2]; · iexact H2
    isplitl [H3]
    · iexists _; rw [pay3_fill V c t d0 d1]; iexact H3
    isplitl [H4]
    · rw [← pay5_fill V c t d0 d1]; iexact H4
    · rw [← pay6_fill V c t d0 d1]; iexact H5
  · rw [accS_later V c t h0, accQ_later V c t h0]
    simp only [before2_4_later V c t h0, before2_5_later V c t h0]
    iintro ⟨HΦ, Ho, ⟨%d0, H0⟩, ⟨%d1, H1⟩, ⟨%d2, H2⟩, ⟨%d3, H3⟩, ⟨%d4, H4⟩, ⟨%d5, H5⟩⟩
    iapply (run2_B c (grid2.coords t) _ _ _ _ _ _ _ _ _ _ _ _ (fun h => h0 ((hcond2 t).mp h))
      ((cfg2.win 0).fill (cfg2.grid.coords t) d0 (iblk2 V c 0 t)) ((cfg2.win 1).fill (cfg2.grid.coords t) d1 (iblk2 V c 1 t))
      (row2 V c t) (accS V c (t.val - 1) (Nat.lt_of_le_of_lt (Nat.sub_le _ _) t.isLt))
      (accQ V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexists d0; iexact H0
    isplitl [H1]; · iexists d1; iexact H1
    isplitl [H2]; · iexact H2
    isplitl [H3]
    · iexists _; rw [pay3_fill V c t d0 d1]; iexact H3
    isplitl [H4]
    · rw [← pay5_fill V c t d0 d1]; iexact H4
    · rw [← pay6_fill V c t d0 d1]; iexact H5

theorem body_obligation2 (c : Dev nD) :
    BodyObligationLoose (dat2 (F := F) V c) (defs₀ (F := F)) Variants.none () Set.univ := fun t => by
  rw [bigSep_W2, bigSep_W2]
  exact sound_body2 V c t

end

end Cert.KernelIdeal.Fr

end
-- ==== Proof.KI.Reg3.lean ====
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

def out3_6 (x0 x1 : Vec F S3200x128 .f32) (m v g b : Vec F S1x128 .f32) : Vec F S3200x128 .f32 :=
  k3_pay1 x1 m v g b x0

theorem out3_6_congr (x0 x0' x1 x1' : Vec F S3200x128 .f32) (m v g b : Vec F S1x128 .f32) (j : S3200x128.Idx)
    (h0 : x0 j = x0' j) (h1 : x1 j = x1' j) : out3_6 x0 x1 m v g b j = out3_6 x0' x1' m v g b j := by
  unfold out3_6 k3_pay1
  simp only [addf, subf, mulf, maximumf, shapeCast, Shape.reshapeEquiv_self, h0, h1]

abbrev r3_0 : Rect S3200x128 := Rect.unit (s := S3200x128) ![0, 0] S3200x128.size inb_S3200x128_S3200x128_0_0
abbrev r3_1 : Rect S1x128 := Rect.unit (s := S1x128) ![0, 0] S1x128.size inb_S1x128_S1x128_0_0

theorem ld_r3_0 (X : Vec F S3200x128 .f32) : View.ld X r3_0 = X := by
  funext x
  show X ((Rect.unit (s := S3200x128) ![0, 0] S3200x128.size inb_S3200x128_S3200x128_0_0).emb x) = X x
  congr 1
  funext a; apply Fin.ext; rw [Rect.emb_apply]; fin_cases a <;> simp

theorem ld_r3_1 (X : Vec F S1x128 .f32) : View.ld X r3_1 = X := by
  funext x
  show X ((Rect.unit (s := S1x128) ![0, 0] S1x128.size inb_S1x128_S1x128_0_0).emb x) = X x
  congr 1
  funext a; apply Fin.ext; rw [Rect.emb_apply]; fin_cases a <;> simp

theorem mem_r3_0 (y : S3200x128.Idx) : y ∈ r3_0.set := by
  rw [Rect.mem_set_unit]
  intro a; fin_cases a
  · exact ⟨Nat.zero_le _, by have := (y 0).isLt; simpa using this⟩
  · exact ⟨Nat.zero_le _, by have := (y 1).isLt; simpa using this⟩

theorem canon_r3_0 (w : Vec F S3200x128 .f32) :
    View.canon [(⟨r3_0, w⟩ : View.Piece (Elt F) S3200x128 .f32)] = w := by
  funext y
  have e := View.canon_cons_emb (Val := Elt F) r3_0 w [] y
  have hy : r3_0.emb y = y := by
    funext a; apply Fin.ext; rw [Rect.emb_apply]; fin_cases a <;> simp
  rw [hy] at e; exact e

theorem cover3_6 (p0 : Vec F S3200x128 .f32) (y : S3200x128.Idx) :
    ∃ pc ∈ ([⟨r3_0, p0⟩] : List (View.Piece (Elt F) S3200x128 .f32)), y ∈ pc.1.set :=
  ⟨⟨r3_0, p0⟩, List.mem_singleton_self _, mem_r3_0 y⟩

set_option maxHeartbeats 1000000 in

theorem sound_kernel3 (c : Dev nD) (E : Set ℕ) (i : grid3.Coords)
    (arg1 : Memref sig .tc .vmem S3200x128 .f32) (harg1 : arg1.IsWhole) (arg2 : Memref sig .tc .vmem S3200x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S3200x128 .f32) (harg7 : arg7.IsWhole)
    (x0 x1 : Vec F S3200x128 .f32) (x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E
          (cc3__bn_relu_residual_kernel i arg1 harg1 arg2 harg2 arg3 harg3 arg4 harg4 arg5 harg5 arg6 harg6 arg7 harg7) K := by
  simp only [cc3__bn_relu_residual_kernel_eq_skeleton]; unfold cc3__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover3_6 _)).trans ?_
  rw [canon_r3_0]
  unfold out3_6
  congr 1 <;> first | exact ld_r3_0 _ | exact ld_r3_1 _

theorem cut_out3_6 (i : grid3.Coords) (d0 d0' d1 d1' : Vec F S3200x128 .f32)
    (x : ((cfg3.win 0).xblock i).Idx → Elt F .f32) (h : ((cfg3.win 1).xblock i).Idx → Elt F .f32)
    (m v g b : Vec F S1x128 .f32) :
    (cfg3.win 6).cut i (out3_6 ((cfg3.win 0).fill i d0 x) ((cfg3.win 1).fill i d1 h) m v g b)
      = (cfg3.win 6).cut i (out3_6 ((cfg3.win 0).fill i d0' x) ((cfg3.win 1).fill i d1' h) m v g b) := by
  funext j
  apply out3_6_congr
  · exact ((cfg3.win 0).fill_xinj i d0 x j).trans ((cfg3.win 0).fill_xinj i d0' x j).symm
  · exact ((cfg3.win 1).fill_xinj i d1 h j).trans ((cfg3.win 1).fill_xinj i d1' h j).symm

section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def xz3_0 (c : Dev nD) (t : Fin cfg3.N) : Vec F S3200x128 .f32 :=
  (cfg3.win 0).fill (cfg3.grid.coords t) (fun _ => Scalar.ofBits .f32 0#32) (iblk3 V c 0 t)

def xz3_1 (c : Dev nD) (t : Fin cfg3.N) : Vec F S3200x128 .f32 :=
  (cfg3.win 1).fill (cfg3.grid.coords t) (fun _ => Scalar.ofBits .f32 0#32) (iblk3 V c 1 t)

def res3_6 (c : Dev nD) (t : Fin cfg3.N) : Vec F S3200x128 .f32 :=
  out3_6 (xz3_0 V c t) (xz3_1 V c t) (iblk3 V c 2 t) (iblk3 V c 3 t) (iblk3 V c 4 t) (iblk3 V c 5 t)

def dat3 (c : Dev nD) : Dat τ (Elt F) Unit ℕ (UR sig nD τ) ℕ cfg3 c where
  A w := V c (Pipeline.arrRef spec3 w)
  after w t := match w with
    | ⟨0, _⟩ => xz3_0 V c t
    | ⟨1, _⟩ => xz3_1 V c t
    | ⟨2, _⟩ => iblk3 V c 2 t
    | ⟨3, _⟩ => iblk3 V c 3 t
    | ⟨4, _⟩ => iblk3 V c 4 t
    | ⟨5, _⟩ => iblk3 V c 5 t
    | ⟨6, _⟩ => res3_6 V c t
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = xz3_0 V c t := by dsimp only [dat3]
theorem after3_1 (c : Dev nD) (t : Fin cfg3.N) : (dat3 V c).after 1 t = xz3_1 V c t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = res3_6 V c t := by dsimp only [dat3]

theorem before3_0 (c : Dev nD) (t : Fin cfg3.N) (d) :
    (dat3 V c).before 0 t d = (cfg3.win 0).fill (cfg3.grid.coords t) d (iblk3 V c 0 t) := by
  unfold Dat.before; rw [if_pos (fetch3_0 t)]; rfl
theorem before3_1 (c : Dev nD) (t : Fin cfg3.N) (d) :
    (dat3 V c).before 1 t d = (cfg3.win 1).fill (cfg3.grid.coords t) d (iblk3 V c 1 t) := by
  unfold Dat.before; rw [if_pos (fetch3_1 t)]; rfl

theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ (∃ d, owns (c : Thread nD τ) (st3_0 t) fullShare
        ((cfg3.win 0).fill (cfg3.grid.coords t) d ((cfg3.win 0).cut (cfg3.grid.coords t) ((dat3 V c).after 0 t))))
    ∗ (∃ d, owns (c : Thread nD τ) (st3_1 t) fullShare
        ((cfg3.win 1).fill (cfg3.grid.coords t) d ((cfg3.win 1).cut (cfg3.grid.coords t) ((dat3 V c).after 1 t))))
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ (∃ d, owns (c : Thread nD τ) (st3_6 t) fullShare
        ((cfg3.win 6).fill (cfg3.grid.coords t) d ((cfg3.win 6).cut (cfg3.grid.coords t) ((dat3 V c).after 6 t)))))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    ((cfg3.win 0).fill (cfg3.grid.coords t) d0 (iblk3 V c 0 t)) ((cfg3.win 1).fill (cfg3.grid.coords t) d1 (iblk3 V c 1 t))
    (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  have hx0 : (cfg3.win 0).cut (cfg3.grid.coords t) (xz3_0 V c t) = iblk3 V c 0 t := (cfg3.win 0).cut_fill _ _ _
  have hx1 : (cfg3.win 1).cut (cfg3.grid.coords t) (xz3_1 V c t) = iblk3 V c 1 t := (cfg3.win 1).cut_fill _ _ _
  have h6 : (cfg3.win 6).fill (cfg3.grid.coords t)
        (out3_6 ((cfg3.win 0).fill (cfg3.grid.coords t) d0 (iblk3 V c 0 t)) ((cfg3.win 1).fill (cfg3.grid.coords t) d1 (iblk3 V c 1 t))
          (iblk3 V c 2 t) (iblk3 V c 3 t) (iblk3 V c 4 t) (iblk3 V c 5 t))
        ((cfg3.win 6).cut (cfg3.grid.coords t) (res3_6 V c t))
      = out3_6 ((cfg3.win 0).fill (cfg3.grid.coords t) d0 (iblk3 V c 0 t)) ((cfg3.win 1).fill (cfg3.grid.coords t) d1 (iblk3 V c 1 t))
          (iblk3 V c 2 t) (iblk3 V c 3 t) (iblk3 V c 4 t) (iblk3 V c 5 t) :=
    (cfg3.win 6).fill_congr_cut (cfg3.grid.coords t) (cut_out3_6 (cfg3.grid.coords t) d0 _ d1 _ _ _ _ _ _ _)
  isplitl [H0]
  · iexists d0; rw [hx0]; iexact H0
  isplitl [H1]
  · iexists d1; rw [hx1]; iexact H1
  isplitl [H2]; · iexact H2
  isplitl [H3]; · iexact H3
  isplitl [H4]; · iexact H4
  isplitl [H5]; · iexact H5
  iexists _; rw [h6]; iexact H6

theorem body_obligation3 (c : Dev nD) :
    BodyObligationLoose (dat3 (F := F) V c) (defs₀ (F := F)) Variants.none () Set.univ := fun t => by
  rw [bigSep_W3, bigSep_W3]
  exact sound_body3 V c t

end

end Cert.KernelIdeal.Fr

end
-- ==== Proof.KI.Vals.lean ====
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import proofs.«423153_j19997367730281_2_alg».proof.Proof.Gen.KernelIdeal.Regions
import proofs.«423153_j19997367730281_2_alg».proof.Proof.KI.Reg0
import proofs.«423153_j19997367730281_2_alg».proof.Proof.KI.Reg1
import proofs.«423153_j19997367730281_2_alg».proof.Proof.KI.Reg2
import proofs.«423153_j19997367730281_2_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev W8 : Dev nD → Valuation τ sig (Elt F) := fun c => StableHlo.after hostOps2_3 (W7 m ρ c)
abbrev V8 : (c : Dev nD) → (b : Ref sig .tc) → Buf (Elt F) ((c : Thread nD τ).loc b) := fun c b => W8 m ρ c b

def W9 (c : Dev nD) : Valuation τ sig (Elt F) :=
  Pipeline.withArrays spec2 c (W8 m ρ c) fun w => (dat2 (V8 m ρ) c).arrAt w cfg2.N
abbrev W10 : Dev nD → Valuation τ sig (Elt F) := fun c => StableHlo.after hostOps3 (W9 m ρ c)
abbrev V10 : (c : Dev nD) → (b : Ref sig .tc) → Buf (Elt F) ((c : Thread nD τ).loc b) := fun c b => W10 m ρ c b

def W11 (c : Dev nD) : Valuation τ sig (Elt F) :=
  Pipeline.withArrays spec3 c (W10 m ρ c) fun w => (dat3 (V10 m ρ) c).arrAt w cfg3.N
abbrev W12 : Dev nD → Valuation τ sig (Elt F) := fun c => StableHlo.after hostOps4 (W11 m ρ c)

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb

theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h
theorem W6_of (c : Dev nD) (r : Ref sig .tc) (h : r ∉ hostOps2_1_W) : W6 m ρ c r = W5 m ρ c r :=
  StableHlo.after_of_writes_sub hostOps2_1 _ hostOps2_1_writes h
theorem W7_of (c : Dev nD) (r : Ref sig .tc) (h : r ∉ hostOps2_2_W) : W7 m ρ c r = W6 m ρ c r :=
  StableHlo.after_of_writes_sub hostOps2_2 _ hostOps2_2_writes h
theorem W8_of (c : Dev nD) (r : Ref sig .tc) (h : r ∉ hostOps2_3_W) : W8 m ρ c r = W7 m ρ c r :=
  StableHlo.after_of_writes_sub hostOps2_3 _ hostOps2_3_writes h
theorem W10_of (c : Dev nD) (r : Ref sig .tc) (h : r ∉ hostOps3_W) : W10 m ρ c r = W9 m ρ c r :=
  StableHlo.after_of_writes_sub hostOps3 _ hostOps3_writes h
theorem W12_of (c : Dev nD) (r : Ref sig .tc) (h : r ∉ hostOps4_W) : W12 m ρ c r = W11 m ρ c r :=
  StableHlo.after_of_writes_sub hostOps4 _ hostOps4_writes h

theorem W2_of (c : Dev nD) (r : Ref sig .tc) (h : r ∉ ([main_v6] : List (Ref sig .tc))) : W2 m ρ c r = W1 m ρ c r := by
  by_cases hr : ∃ w, Pipeline.arrRef spec0 w = r
  · obtain ⟨w, rfl⟩ := hr
    have hin : (cfg0.win w).isOut = false := by
      fin_cases w <;> first | rfl | exact absurd (by decide) h
    exact (W2_arr m ρ c w).trans (((dat0 (V1 m ρ) c).arrAt_in w hin _).trans (A_eq0 (V1 m ρ) c w))
  · exact W2_of_ne m ρ c r (fun w e => hr ⟨w, e⟩)

theorem W4_of (c : Dev nD) (r : Ref sig .tc) (h : r ∉ ([main_v11] : List (Ref sig .tc))) : W4 m ρ c r = W3 m ρ c r := by
  by_cases hr : ∃ w, Pipeline.arrRef spec1 w = r
  · obtain ⟨w, rfl⟩ := hr
    have hin : (cfg1.win w).isOut = false := by
      fin_cases w <;> first | rfl | exact absurd (by decide) h
    exact (W4_arr m ρ c w).trans (((dat1 (V3 m ρ) c).arrAt_in w hin _).trans (A_eq1 (V3 m ρ) c w))
  · exact W4_of_ne m ρ c r (fun w e => hr ⟨w, e⟩)

theorem W9_of (c : Dev nD) (r : Ref sig .tc) (h : r ∉ ([main_v33_0, main_v33_1, main_v33_2] : List (Ref sig .tc))) : W9 m ρ c r = W8 m ρ c r := by
  by_cases hr : ∃ w, Pipeline.arrRef spec2 w = r
  · obtain ⟨w, rfl⟩ := hr
    have hin : (cfg2.win w).isOut = false := by
      fin_cases w <;> first | rfl | exact absurd (by decide) h
    exact (W9_arr m ρ c w).trans (((dat2 (V8 m ρ) c).arrAt_in w hin _).trans (A_eq2 (V8 m ρ) c w))
  · exact W9_of_ne m ρ c r (fun w e => hr ⟨w, e⟩)

theorem W11_of (c : Dev nD) (r : Ref sig .tc) (h : r ∉ ([main_v61] : List (Ref sig .tc))) : W11 m ρ c r = W10 m ρ c r := by
  by_cases hr : ∃ w, Pipeline.arrRef spec3 w = r
  · obtain ⟨w, rfl⟩ := hr
    have hin : (cfg3.win w).isOut = false := by
      fin_cases w <;> first | rfl | exact absurd (by decide) h
    exact (W11_arr m ρ c w).trans (((dat3 (V10 m ρ) c).arrAt_in w hin _).trans (A_eq3 (V10 m ρ) c w))
  · exact W11_of_ne m ρ c r (fun w e => hr ⟨w, e⟩)

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V8 m ρ) c
  | ⟨3, _⟩ => fun c => dat3 (V10 m ρ) c

end Cert.KernelIdeal.Fr

end
-- ==== Proof.KI.Run.lean ====
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import proofs.«423153_j19997367730281_2_alg».proof.Proof.KI.Vals
import proofs.«423153_j19997367730281_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

set_option backward.isDefEq.respectTransparency.types false in
/-- A region over the thread state: its arrays are split out of the unscoped buffers at `W` and put back at `W'`;
    nothing is owed and the kernel has no semaphore of its own. -/
def regOf (p : Fin 4) (lf : Pipeline.LaunchFacts (nD := nD) (τ := τ) cfgs p) (W W' : Dev nD → Valuation τ sig (Elt F))
    (hbody : ∀ c, BodyObligationLoose (pdats m ρ p c) (defs₀ (F := F)) 𝒱₀ () Set.univ)
    (hq : ∀ c w, (pdats m ρ p c).q w = fullShare) (howed : ∀ c t, (pdats m ρ p c).owed t = 0)
    (hrec : ∀ c t, (pdats m ρ p c).recorded t = Set.univ)
    (hΦ : ∀ c t, (pdats m ρ p c).Φ t = Pipeline.ΦA (Pipeline.pin (pcfgs (F := F)) adm p).spec c)
    (hA : ∀ c w, (pdats m ρ p c).A w = W c (Pipeline.arrRef (Pipeline.pin (pcfgs (F := F)) adm p).spec w))
    (hF : ∀ c w, W' c (Proc.devRef .tc (Pipeline.arrRef (Pipeline.pin (pcfgs (F := F)) adm p).spec w))
      = (pdats m ρ p c).arrAt w (Pipeline.pin (pcfgs (F := F)) adm p).N)
    (hne : ∀ c (b : Ref sig .tc), (∀ w, Pipeline.arrRef (Pipeline.pin (pcfgs (F := F)) adm p).spec w ≠ b) →
      W' c (Proc.devRef .tc b) = W c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ)
    (Pipeline.pin (pcfgs (F := F)) adm p).spec c (fun b => W c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => W c b) (fun b => W' c b) ((pdats m ρ p c).arrAt · (Pipeline.pin (pcfgs (F := F)) adm p).N) (fun w => (hF c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

abbrev reg0 := regOf m ρ 0 launch0 (W1 m ρ) (W2 m ρ) (body_obligation0 (V1 m ρ)) (fun _ _ => rfl) (fun _ _ => rfl)
  (fun _ _ => rfl) (fun _ _ => rfl) (fun _ _ => rfl) (W2_arr m ρ) (W2_of_ne m ρ)
abbrev reg1 := regOf m ρ 1 launch1 (W3 m ρ) (W4 m ρ) (body_obligation1 (V3 m ρ)) (fun _ _ => rfl) (fun _ _ => rfl)
  (fun _ _ => rfl) (fun _ _ => rfl) (fun _ _ => rfl) (W4_arr m ρ) (W4_of_ne m ρ)
abbrev reg2 := regOf m ρ 2 launch2 (W8 m ρ) (W9 m ρ) (body_obligation2 (V8 m ρ)) (fun _ _ => rfl) (fun _ _ => rfl)
  (fun _ _ => rfl) (fun _ _ => rfl) (fun _ _ => rfl) (W9_arr m ρ) (W9_of_ne m ρ)
abbrev reg3 := regOf m ρ 3 launch3 (W10 m ρ) (W11 m ρ) (body_obligation3 (V10 m ρ)) (fun _ _ => rfl) (fun _ _ => rfl)
  (fun _ _ => rfl) (fun _ _ => rfl) (fun _ _ => rfl) (W11_arr m ρ) (W11_of_ne m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .region (reg2 m ρ),
    .host (hseg hostOps3 hostOps3_sub hostOps3_fresh (W9 m ρ)),
    .region (reg3 m ρ),
    .host (hseg hostOps4 hostOps4_sub hostOps4_fresh (W11 m ρ)) ]

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        change iprop(StableHlo.held (c : Thread nD τ) (Pipeline.ucRefs τ sig) (W12 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Fr

end
-- ==== Proof.KI.Frame.lean ====
import proofs.«423153_j19997367730281_2_alg».proof.Proof.KI.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

abbrev args : List (Ref sig .tc) :=
  [main_arg0, main_arg1, main_arg2, main_arg3, main_arg4, main_arg5, main_arg6, main_arg7, main_arg8, main_arg9,
   main_arg10, main_arg11, main_arg12, main_arg13, main_arg14]

abbrev writes : List (List (Ref sig .tc)) :=
  [hostOps0_W, [main_v6], hostOps1_W, [main_v11], hostOps2_W, hostOps2_1_W, hostOps2_2_W, hostOps2_3_W,
   [main_v33_0, main_v33_1, main_v33_2], hostOps3_W, [main_v61], hostOps4_W]

/-- A buffer that none of the twelve items writes holds its launch contents at the last boundary. -/
theorem W12_kept (c : Dev nD) (r : Ref sig .tc) (h : writes.Forall (r ∉ ·)) :
    W12 m ρ c r = m ((c : Thread nD τ).loc r) := by
  obtain ⟨h0, h1, h2, h3, h4, h5, h6, h7, h8, h9, h10, h11⟩ := h
  exact (W12_of m ρ c r h11).trans <| (W11_of m ρ c r h10).trans <| (W10_of m ρ c r h9).trans <|
    (W9_of m ρ c r h8).trans <| (W8_of m ρ c r h7).trans <| (W7_of m ρ c r h6).trans <|
    (W6_of m ρ c r h5).trans <| (W5_of m ρ c r h4).trans <| (W4_of m ρ c r h3).trans <|
    (W3_of m ρ c r h2).trans <| (W2_of m ρ c r h1).trans <| (W1_of m ρ c r h0).trans rfl

/-- The run read at the result buffer and at the arguments: no item writes an argument. -/
theorem run_result : θ_run defs (onTc (τ := τ) (main (F := F))) ⟨m, fun _ => 0, ρ⟩ (fun r => ∀ c : Dev nD,
      r.2.mem ((c.tc : Thread nD τ).loc main_v62) = W12 m ρ c (Proc.devRef .tc main_v62)
      ∧ args.Forall fun a => r.2.mem ((c.tc : Thread nD τ).loc a) = m ((c.tc : Thread nD τ).loc a)) :=
  (θ_run defs _ _).mono (fun r h c => ⟨h c _ (mem_uc main_v62 (by decide)),
    List.forall_iff_forall_mem.mpr fun a ha => (h c _ (mem_uc a
      ((by decide : ∀ a ∈ args, ¬ (Proc.devRef .tc a : DevRef τ sig).isScoped) a ha))).trans
      (W12_kept m ρ c a ((by decide : ∀ a ∈ args, writes.Forall (a ∉ ·)) a ha))⟩) (run m ρ)

theorem frame : θ_run defs (onTc (τ := τ) (main (F := F))) ⟨m, fun _ => 0, ρ⟩ (fun r => ∀ c : Dev nD,
      args.Forall fun a => r.2.mem ((c.tc : Thread nD τ).loc a) = m ((c.tc : Thread nD τ).loc a)) :=
  (θ_run defs _ _).mono (fun _ h c => (h c).2) (run_result m ρ)

end Cert.KernelIdeal.Fr

end
-- ==== Proof.SameProgram.lean ====
import proofs.«423153_j19997367730281_2_alg».proof.Defs
import proofs.«423153_j19997367730281_2_alg».proof.Proof.Gen.Kernel
import proofs.«423153_j19997367730281_2_alg».proof.Proof.Gen.Pre_finite_inputs
import proofs.«423153_j19997367730281_2_alg».proof.Proof.KI.Frame

set_option maxRecDepth 16384

noncomputable section

namespace Cert.Same

open Cert.Kernel Idealize.ShloMosaic Idealize.SL.Sem Idealize.ShloMosaic.TcCoe

/-! The program as printed and its idealization are one text under two names, so the frame proved for the latter at
    every float instance is the former's. -/

set_option maxHeartbeats 4000000 in
theorem defs₀_eq : defs₀ (F := Bits) = KernelIdeal.defs₀ (F := Bits) := by
  unfold defs₀ KernelIdeal.defs₀
  refine congrArg _ (funext fun l => ?_)
  match l with
  | 0 => rfl
  | 1 => rfl
  | 2 => rfl
  | 3 => rfl

set_option maxHeartbeats 4000000 in
theorem defs_eq : defs (F := Bits) = KernelIdeal.defs (F := Bits) := by
  unfold defs KernelIdeal.defs
  rw [defs₀_eq]
  rfl

set_option maxHeartbeats 4000000 in
theorem main_eq : main (F := Bits) = KernelIdeal.main (F := Bits) := rfl

theorem frame : Cert.frame_Kernel := by
  intro m ρ _
  rw [defs_eq, main_eq]
  exact KernelIdeal.Fr.frame (F := Bits) m ρ

end Cert.Same

end
-- ==== Proof.KI.ValDefs.lean ====
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import proofs.«423153_j19997367730281_2_alg».proof.Proof.KI.Vals
import proofs.«423153_j19997367730281_2_alg».proof.Proof.Gen.ReferenceIdeal.Read
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.ReferenceIdeal.Read
open Idealize.ShloMosaic.ValueIdx

variable (m : (ℓ : Loc nD τ sig) → Buf (Elt Ideal) ℓ) (ρ : Dev nD → PrngReg) (c : Dev nD)

abbrev inp0 : S500000x16.Idx → EReal := m ((c : Thread nD τ).loc main_arg0)
abbrev inp1 : S2x5000000.Idx → BitVec 32 := m ((c : Thread nD τ).loc main_arg1)
abbrev inp2 : S5000000x16.Idx → EReal := m ((c : Thread nD τ).loc main_arg2)
abbrev inp3 : S16x16.Idx → EReal := m ((c : Thread nD τ).loc main_arg3)
abbrev inp4 : S16.Idx → EReal := m ((c : Thread nD τ).loc main_arg4)
abbrev inp5 : S16x16.Idx → EReal := m ((c : Thread nD τ).loc main_arg5)
abbrev inp6 : S16.Idx → EReal := m ((c : Thread nD τ).loc main_arg6)
abbrev inp7 : S16x16.Idx → EReal := m ((c : Thread nD τ).loc main_arg7)
abbrev inp8 : S16.Idx → EReal := m ((c : Thread nD τ).loc main_arg8)
abbrev inp9 : S16x16.Idx → EReal := m ((c : Thread nD τ).loc main_arg9)
abbrev inp10 : S16x16.Idx → EReal := m ((c : Thread nD τ).loc main_arg10)
abbrev inp11 : S16.Idx → EReal := m ((c : Thread nD τ).loc main_arg11)
abbrev inp12 : S16.Idx → EReal := m ((c : Thread nD τ).loc main_arg12)
abbrev inp13 : S16.Idx → EReal := m ((c : Thread nD τ).loc main_arg13)
abbrev inp14 : S16.Idx → EReal := m ((c : Thread nD τ).loc main_arg14)

abbrev rK : S500000x16.Idx → EReal := val_main_v7 (F := Ideal) (inp0 m c) (inp3 m c) (inp4 m c)
abbrev rQ : S500000x16.Idx → EReal := val_main_v11 (F := Ideal) (inp0 m c) (inp5 m c) (inp6 m c)
abbrev rV : S500000x16.Idx → EReal := val_main_v15 (F := Ideal) (inp0 m c) (inp7 m c) (inp8 m c)
abbrev rE : S5000000x16.Idx → EReal := val_main_v16 (F := Ideal) (inp2 m c) (inp9 m c)
abbrev rXs : S500000x16.Idx → EReal := val_main_v53 (F := Ideal) (inp0 m c) (inp10 m c) (inp11 m c)

abbrev rAgg : S500000x16.Idx → EReal := val_main_v49 (F := Ideal) (inp0 m c) (inp1 m c) (inp2 m c) (inp3 m c) (inp4 m c) (inp5 m c) (inp6 m c) (inp7 m c) (inp8 m c) (inp9 m c)

abbrev rH : S500000x16.Idx → EReal := val_main_v57 (F := Ideal) (inp0 m c) (inp1 m c) (inp2 m c) (inp3 m c) (inp4 m c) (inp5 m c) (inp6 m c) (inp7 m c) (inp8 m c) (inp9 m c) (inp10 m c) (inp11 m c) (inp12 m c)

abbrev rMean : S16.Idx → EReal := val_main_v60 (F := Ideal) (inp0 m c) (inp1 m c) (inp2 m c) (inp3 m c) (inp4 m c) (inp5 m c) (inp6 m c) (inp7 m c) (inp8 m c) (inp9 m c) (inp10 m c) (inp11 m c) (inp12 m c)
abbrev rVar : S16.Idx → EReal := val_main_v67 (F := Ideal) (inp0 m c) (inp1 m c) (inp2 m c) (inp3 m c) (inp4 m c) (inp5 m c) (inp6 m c) (inp7 m c) (inp8 m c) (inp9 m c) (inp10 m c) (inp11 m c) (inp12 m c)

abbrev rOut : S500000x16.Idx → EReal := val_main_v84 (F := Ideal) (inp0 m c) (inp1 m c) (inp2 m c) (inp3 m c) (inp4 m c) (inp5 m c) (inp6 m c) (inp7 m c) (inp8 m c) (inp9 m c) (inp10 m c) (inp11 m c) (inp12 m c) (inp13 m c) (inp14 m c)

abbrev nodeOf (M : Fin 62500) (l : Fin 128) : Fin 500000 := ⟨8 * M.val + l.val / 16, by have := M.isLt; have := l.isLt; omega⟩
abbrev featOf (l : Fin 128) : Fin 16 := ⟨l.val % 16, Nat.mod_lt _ (by decide)⟩

def IdxOk : Prop := ∀ i : S2x5000000.Idx, 0 ≤ (inp1 m c i).toInt ∧ (inp1 m c i).toInt < 500000

def HReal : Prop := ∀ i : S500000x16.Idx, ∃ r : ℝ, rH m c i = (r : EReal)

end Cert.KernelIdeal.Fr

end
-- ==== Proof.KI.ValNode.lean ====
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import proofs.«423153_j19997367730281_2_alg».proof.Proof.KI.ValDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.ReferenceIdeal.Read
open Idealize.ShloMosaic.ValueIdx

variable (m : (ℓ : Loc nD τ sig) → Buf (Elt Ideal) ℓ) (ρ : Dev nD → PrngReg) (c : Dev nD)

theorem cat_cols (A0 A1 A2 A3 : S16x16.Idx → EReal) (k f : Fin 16) (col : Fin 64) :
    (col.val = 0 + f.val → concatenate S16x64 1 [⟨S16x16, A0⟩, ⟨S16x16, A1⟩, ⟨S16x16, A2⟩, ⟨S16x16, A3⟩] concatenates_S16x16_S16x16_S16x16_S16x16_S16x64_d1 (ix2 k col) = A0 (ix2 k f))
    ∧ (col.val = 16 + f.val → concatenate S16x64 1 [⟨S16x16, A0⟩, ⟨S16x16, A1⟩, ⟨S16x16, A2⟩, ⟨S16x16, A3⟩] concatenates_S16x16_S16x16_S16x16_S16x16_S16x64_d1 (ix2 k col) = A1 (ix2 k f))
    ∧ (col.val = 32 + f.val → concatenate S16x64 1 [⟨S16x16, A0⟩, ⟨S16x16, A1⟩, ⟨S16x16, A2⟩, ⟨S16x16, A3⟩] concatenates_S16x16_S16x16_S16x16_S16x16_S16x64_d1 (ix2 k col) = A2 (ix2 k f))
    ∧ (col.val = 48 + f.val → concatenate S16x64 1 [⟨S16x16, A0⟩, ⟨S16x16, A1⟩, ⟨S16x16, A2⟩, ⟨S16x16, A3⟩] concatenates_S16x16_S16x16_S16x16_S16x16_S16x64_d1 (ix2 k col) = A3 (ix2 k f)) := by
  refine ⟨fun hc => ?_, fun hc => ?_, fun hc => ?_, fun hc => ?_⟩
  · exact concatenate_apply_piece 1 _ _ (ix2 k col) 0 (by show (_ : ℕ) < 4; omega) S16x16 A0 rfl rfl 0 rfl (ix2 k f)
      (fun b hb => by match b with | ⟨0, _⟩ => rfl | ⟨1, _⟩ => exact absurd rfl hb) (by show 0 + f.val = col.val; omega)
  · exact concatenate_apply_piece 1 _ _ (ix2 k col) 1 (by show (_ : ℕ) < 4; omega) S16x16 A1 rfl rfl 16 rfl (ix2 k f)
      (fun b hb => by match b with | ⟨0, _⟩ => rfl | ⟨1, _⟩ => exact absurd rfl hb) (by show 16 + f.val = col.val; omega)
  · exact concatenate_apply_piece 1 _ _ (ix2 k col) 2 (by show (_ : ℕ) < 4; omega) S16x16 A2 rfl rfl 32 rfl (ix2 k f)
      (fun b hb => by match b with | ⟨0, _⟩ => rfl | ⟨1, _⟩ => exact absurd rfl hb) (by show 32 + f.val = col.val; omega)
  · exact concatenate_apply_piece 1 _ _ (ix2 k col) 3 (by show (_ : ℕ) < 4; omega) S16x16 A3 rfl rfl 48 rfl (ix2 k f)
      (fun b hb => by match b with | ⟨0, _⟩ => rfl | ⟨1, _⟩ => exact absurd rfl hb) (by show 48 + f.val = col.val; omega)

theorem cat_entries (b0 b1 b2 b3 : S16.Idx → EReal) (f : Fin 16) (col : Fin 64) :
    (col.val = 0 + f.val → concatenate S64 0 [⟨S16, b0⟩, ⟨S16, b1⟩, ⟨S16, b2⟩, ⟨S16, b3⟩] concatenates_S16_S16_S16_S16_S64_d0 (ix1 col) = b0 (ix1 f))
    ∧ (col.val = 16 + f.val → concatenate S64 0 [⟨S16, b0⟩, ⟨S16, b1⟩, ⟨S16, b2⟩, ⟨S16, b3⟩] concatenates_S16_S16_S16_S16_S64_d0 (ix1 col) = b1 (ix1 f))
    ∧ (col.val = 32 + f.val → concatenate S64 0 [⟨S16, b0⟩, ⟨S16, b1⟩, ⟨S16, b2⟩, ⟨S16, b3⟩] concatenates_S16_S16_S16_S16_S64_d0 (ix1 col) = b2 (ix1 f))
    ∧ (col.val = 48 + f.val → concatenate S64 0 [⟨S16, b0⟩, ⟨S16, b1⟩, ⟨S16, b2⟩, ⟨S16, b3⟩] concatenates_S16_S16_S16_S16_S64_d0 (ix1 col) = b3 (ix1 f)) := by
  refine ⟨fun hc => ?_, fun hc => ?_, fun hc => ?_, fun hc => ?_⟩
  · exact concatenate_apply_piece 0 _ _ (ix1 col) 0 (by show (_ : ℕ) < 4; omega) S16 b0 rfl rfl 0 rfl (ix1 f)
      (fun b hb => by match b with | ⟨0, _⟩ => exact absurd rfl hb) (by show 0 + f.val = col.val; omega)
  · exact concatenate_apply_piece 0 _ _ (ix1 col) 1 (by show (_ : ℕ) < 4; omega) S16 b1 rfl rfl 16 rfl (ix1 f)
      (fun b hb => by match b with | ⟨0, _⟩ => exact absurd rfl hb) (by show 16 + f.val = col.val; omega)
  · exact concatenate_apply_piece 0 _ _ (ix1 col) 2 (by show (_ : ℕ) < 4; omega) S16 b2 rfl rfl 32 rfl (ix1 f)
      (fun b hb => by match b with | ⟨0, _⟩ => exact absurd rfl hb) (by show 32 + f.val = col.val; omega)
  · exact concatenate_apply_piece 0 _ _ (ix1 col) 3 (by show (_ : ℕ) < 4; omega) S16 b3 rfl rfl 48 rfl (ix1 f)
      (fun b hb => by match b with | ⟨0, _⟩ => exact absurd rfl hb) (by show 48 + f.val = col.val; omega)

theorem lhs_pay0_0 (i : S5000x64.Idx) (q : dot_S5000x16_S16x64_S5000x64_1_0_0_1_n_n.contr.Idx) :
    (dot_S5000x16_S16x64_S5000x64_1_0_0_1_n_n.lhsIdx i q 0).val = (i 0).val := by
  unfold DotDims.lhsIdx
  rw [dif_neg (show ¬(0 : Fin S5000x16.rank) ∈ dot_S5000x16_S16x64_S5000x64_1_0_0_1_n_n.lhsBatch by decide), dif_pos (show (0 : Fin S5000x16.rank) ∈ dot_S5000x16_S16x64_S5000x64_1_0_0_1_n_n.lhsNonContracting by decide)]
  rfl
theorem lhs_pay0_1 (i : S5000x64.Idx) (q : dot_S5000x16_S16x64_S5000x64_1_0_0_1_n_n.contr.Idx) :
    (dot_S5000x16_S16x64_S5000x64_1_0_0_1_n_n.lhsIdx i q 1).val = (q ⟨0, by decide⟩).val :=
  dot_S5000x16_S16x64_S5000x64_1_0_0_1_n_n.lhsIdx_val_of_single rfl i q
theorem rhs_pay0_0 (i : S5000x64.Idx) (q : dot_S5000x16_S16x64_S5000x64_1_0_0_1_n_n.contr.Idx) :
    (dot_S5000x16_S16x64_S5000x64_1_0_0_1_n_n.rhsIdx i q 0).val = (q ⟨0, by decide⟩).val :=
  dot_S5000x16_S16x64_S5000x64_1_0_0_1_n_n.rhsIdx_val_of_single rfl i q
theorem rhs_pay0_1 (i : S5000x64.Idx) (q : dot_S5000x16_S16x64_S5000x64_1_0_0_1_n_n.contr.Idx) :
    (dot_S5000x16_S16x64_S5000x64_1_0_0_1_n_n.rhsIdx i q 1).val = (i 1).val := by
  unfold DotDims.rhsIdx
  rw [dif_neg (show ¬(1 : Fin S16x64.rank) ∈ dot_S5000x16_S16x64_S5000x64_1_0_0_1_n_n.rhsBatch by decide), dif_pos (show (1 : Fin S16x64.rank) ∈ dot_S5000x16_S16x64_S5000x64_1_0_0_1_n_n.rhsNonContracting by decide)]
  rfl

theorem matmul_pay0 (a : FVec Ideal S5000x16 .bf16) (b : FVec Ideal S16x64 .bf16) (p : Fin 5000) (q : Fin 64) :
    matmul dot_S5000x16_S16x64_S5000x64_1_0_0_1_n_n none a b (constant S5000x64 .f32 0x00000000#32) (ix2 p q)
      = ∑ k : Fin 16, a (ix2 p k) * b (ix2 k q) := by
  simp only [matmul]
  rw [Ideal.matmul_constant_zero_apply, ← Equiv.sum_comp (ValueIdx.contrEquiv1 dot_S5000x16_S16x64_S5000x64_1_0_0_1_n_n 16 rfl rfl).symm]
  refine Finset.sum_congr rfl fun k _ => ?_
  have hk := ValueIdx.contrEquiv1_symm_val dot_S5000x16_S16x64_S5000x64_1_0_0_1_n_n 16 rfl rfl k
  have el : dot_S5000x16_S16x64_S5000x64_1_0_0_1_n_n.lhsIdx (ix2 p q) ((ValueIdx.contrEquiv1 dot_S5000x16_S16x64_S5000x64_1_0_0_1_n_n 16 rfl rfl).symm k) = ix2 p k := funext fun a => Fin.ext (by
    match a with
    | ⟨0, _⟩ => exact lhs_pay0_0 _ _
    | ⟨1, _⟩ => exact (lhs_pay0_1 _ _).trans hk)
  have er : dot_S5000x16_S16x64_S5000x64_1_0_0_1_n_n.rhsIdx (ix2 p q) ((ValueIdx.contrEquiv1 dot_S5000x16_S16x64_S5000x64_1_0_0_1_n_n 16 rfl rfl).symm k) = ix2 k q := funext fun a => Fin.ext (by
    match a with
    | ⟨0, _⟩ => exact (rhs_pay0_0 _ _).trans hk
    | ⟨1, _⟩ => exact rhs_pay0_1 _ _)
  rw [el, er]

theorem pay0_apply (x0 : Vec Ideal S5000x16 .f32) (x1 : Vec Ideal S16x64 .f32) (x2 : Vec Ideal S64 .f32) (p : Fin 5000) (q : Fin 64) :
    k0_pay1 x0 x1 x2 (ix2 p q) = (∑ k : Fin 16, x0 (ix2 p k) * x1 (ix2 k q)) + x2 (ix1 q) := by
  unfold k0_pay1
  rw [addf_apply, matmul_pay0, broadcastTo_1b_ab_apply, shapeCast_a_1a_apply, shapeCast_self, shapeCast_self]
  rfl

def fusedAt (X : S500000x16.Idx → EReal) (Wc : S16x64.Idx → EReal) (bc : S64.Idx → EReal) (n : Fin 500000) (j : Fin 64) : EReal :=
  (∑ k : Fin 16, X (ix2 n k) * Wc (ix2 k j)) + bc (ix1 j)

def fused (X : S500000x16.Idx → EReal) (Wc : S16x64.Idx → EReal) (bc : S64.Idx → EReal) : S500000x64.Idx → EReal :=
  fun i => fusedAt X Wc bc ⟨(i 0).val, (i 0).isLt⟩ ⟨(i 1).val, (i 1).isLt⟩

theorem zeros2 : (![0, 0] : Fin 2 → Nat) = fun _ => 0 := funext fun a => by fin_cases a <;> rfl
theorem zeros1 : (![0] : Fin 1 → Nat) = fun _ => 0 := funext fun a => by fin_cases a <;> rfl

theorem pay0_fused (X : S500000x16.Idx → EReal) (Wc : S16x64.Idx → EReal) (bc : S64.Idx → EReal)
    (x0 : Vec Ideal S5000x16 .f32) (x1 : Vec Ideal S16x64 .f32) (x2 : Vec Ideal S64 .f32) (T : ℕ)
    (h0 : ∀ (p : Fin 5000) (k : Fin 16) (n : Fin 500000), n.val = T * 5000 + p.val → x0 (ix2 p k) = X (ix2 n k))
    (h1 : ∀ (k : Fin 16) (q : Fin 64), x1 (ix2 k q) = Wc (ix2 k q))
    (h2 : ∀ q : Fin 64, x2 (ix1 q) = bc (ix1 q))
    (j : S5000x64.Idx) (i : S500000x64.Idx) (hi0 : (i 0).val = T * 5000 + (j 0).val) (hi1 : (i 1).val = (j 1).val) :
    k0_pay1 x0 x1 x2 j = fused X Wc bc i := by
  obtain ⟨p, q, rfl⟩ : ∃ (p : Fin 5000) (q : Fin 64), j = ix2 p q := ⟨j 0, j 1, eq_ix2 j⟩
  rw [pay0_apply]
  unfold fused fusedAt
  have hq : (⟨(i 1).val, (i 1).isLt⟩ : Fin 64) = q := Fin.ext hi1
  rw [hq, h2 q]
  refine congrArg (· + bc (ix1 q)) (Finset.sum_congr rfl fun k _ => ?_)
  rw [h0 p k ⟨(i 0).val, (i 0).isLt⟩ hi0, h1]

section
variable (V : (c : Dev nD) → (b : Ref sig .tc) → Buf (Elt Ideal) ((c : Thread nD τ).loc b))

theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0
    ∧ win0_3.index t (0 : Fin 2) = t.val :=
  (by decide +kernel : ∀ t : Fin grid0.N, _)

theorem flushed0_eq (c : Dev nD) (t : Fin cfg0.N) :
    (dat0 V c).flushed 3 t = ((cfg0.win 3).blk t).view.read (Elt Ideal) (fused (V c main_arg0) (V c main_v4) (V c main_v5)) := by
  show (cfg0.win 3).cut (grid0.coords t) ((dat0 V c).after 3 t) = _
  rw [after0_3]
  unfold out0_3
  rw [View.canon_unit_zero zeros2]
  simp only [View.ld_unit_zero (S := S5000x16) zeros2, View.ld_unit_zero (S := S16x64) zeros2, View.ld_unit_zero (S := S64) zeros1]
  obtain ⟨e0, e1, e2, e3, e4, e5, e6⟩ := idx_facts0 t
  funext j
  show k0_pay1 (iblk0 V c 0 t) (iblk0 V c 1 t) (iblk0 V c 2 t) j = fused (V c main_arg0) (V c main_v4) (V c main_v5) (((cfg0.win 3).blk t).view.emb j)
  refine pay0_fused _ _ _ _ _ _ (win0_3.index t (0 : Fin 2)) ?_ ?_ ?_ j _ ?_ ?_
  · intro p k n hn
    show V c main_arg0 (((cfg0.win 0).blk t).view.emb (ix2 p k)) = V c main_arg0 (ix2 n k)
    refine congrArg (V c main_arg0) (funext fun a => Fin.ext ?_)
    match a with
    | ⟨0, _⟩ => show win0_0.index t (0 : Fin 2) * 5000 + 1 * p.val = n.val; omega
    | ⟨1, _⟩ => show win0_0.index t (1 : Fin 2) * 16 + 1 * k.val = k.val; omega
  · intro k q
    show V c main_v4 (((cfg0.win 1).blk t).view.emb (ix2 k q)) = V c main_v4 (ix2 k q)
    refine congrArg (V c main_v4) (funext fun a => Fin.ext ?_)
    match a with
    | ⟨0, _⟩ => show win0_1.index t (0 : Fin 2) * 16 + 1 * k.val = k.val; omega
    | ⟨1, _⟩ => show win0_1.index t (1 : Fin 2) * 64 + 1 * q.val = q.val; omega
  · intro q
    show V c main_v5 (((cfg0.win 2).blk t).view.emb (ix1 q)) = V c main_v5 (ix1 q)
    refine congrArg (V c main_v5) (funext fun a => Fin.ext ?_)
    match a with
    | ⟨0, _⟩ => show win0_2.index t (0 : Fin 1) * 64 + 1 * q.val = q.val; omega
  · show win0_3.index t (0 : Fin 2) * 5000 + 1 * (j 0).val = win0_3.index t (0 : Fin 2) * 5000 + (j 0).val; omega
  · show win0_3.index t (1 : Fin 2) * 64 + 1 * (j 1).val = (j 1).val; omega

theorem mem_blk0 (t : Fin cfg0.N) (i : S500000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v6).slice (win0_3.rect t)).set ↔ _
  rw [View.set_slice_whole, Rect.mem_set_unit]
  exact Iff.rfl

theorem fused_final (c : Dev nD) :
    (dat0 V c).arrAt 3 cfg0.N = fused (V c main_arg0) (V c main_v4) (V c main_v5) :=
  (dat0 V c).arrAt_eq_of_cover 3 _ (fun t _ => flushed0_eq V c t) fun i => by
    have hi0 : (i 0).val < 500000 := (i 0).isLt
    have hi1 : (i 1).val < 64 := (i 1).isLt
    have hN : cfg0.N = 100 := N_0
    have ht : (i 0).val / 5000 < cfg0.N := by rw [hN]; omega
    obtain ⟨e0, e1, e2, e3, e4, e5, e6⟩ := idx_facts0 ⟨(i 0).val / 5000, ht⟩
    have e6' : win0_3.index ⟨(i 0).val / 5000, ht⟩ (0 : Fin 2) = (i 0).val / 5000 := e6
    refine ⟨⟨(i 0).val / 5000, ht⟩, flush0_3 _, ?_⟩
    rw [mem_blk0]
    intro a
    match a with
    | ⟨0, _⟩ =>
      show win0_3.index ⟨(i 0).val / 5000, ht⟩ (0 : Fin 2) * 5000 ≤ (i 0).val ∧ (i 0).val < win0_3.index ⟨(i 0).val / 5000, ht⟩ (0 : Fin 2) * 5000 + 5000
      rw [e6']; omega
    | ⟨1, _⟩ =>
      show win0_3.index ⟨(i 0).val / 5000, ht⟩ (1 : Fin 2) * 64 ≤ (i 1).val ∧ (i 1).val < win0_3.index ⟨(i 0).val / 5000, ht⟩ (1 : Fin 2) * 64 + 64
      rw [e5]; omega
end

/-- Columns o … o + 15 of the fused product are the projection by the weight block and bias that sit there. -/
theorem slice_fused (X : S500000x16.Idx → EReal) (Wc : S16x64.Idx → EReal) (bc : S64.Idx → EReal) (o : ℕ)
    (h : S500000x64.Slices ![0, o] S500000x16) (W : S16x16.Idx → EReal) (b : S16.Idx → EReal)
    (hW : ∀ (k f : Fin 16) (col : Fin 64), col.val = o + f.val → Wc (ix2 k col) = W (ix2 k f))
    (hb : ∀ (f : Fin 16) (col : Fin 64), col.val = o + f.val → bc (ix1 col) = b (ix1 f)) (ho : o + 16 ≤ 64) :
    extractStridedSlice S500000x16 ![0, o] (fused X Wc bc) h = val_main_v7 (F := Ideal) X W b := by
  funext i
  obtain ⟨n, f, rfl⟩ : ∃ (n : Fin 500000) (f : Fin 16), i = ix2 n f := ⟨i 0, i 1, eq_ix2 i⟩
  have hf : f.val < 16 := f.isLt
  refine (slice2_axis1_apply o (fused X Wc bc) h n f ⟨o + f.val, by omega⟩ rfl).trans ?_
  rw [val_main_v7_apply, val_main_v4_apply, val_main_v6_apply, val_main_v5_apply]
  have el : ∀ k : Fin 16, lidx_main_v4 (ix2 n f) k = ix2 n k := fun k => funext fun a => Fin.ext (by
    match a with | ⟨0, _⟩ => rfl | ⟨1, _⟩ => rfl)
  have er : ∀ k : Fin 16, ridx_main_v4 (ix2 n f) k = ix2 k f := fun k => funext fun a => Fin.ext (by
    match a with | ⟨0, _⟩ => rfl | ⟨1, _⟩ => rfl)
  have eb : idx_main_v5 (idx_main_v6 (ix2 n f)) = ix1 f := funext fun a => Fin.ext (by
    match a with | ⟨0, _⟩ => rfl)
  simp only [el, er, eb]
  show (∑ k : Fin 16, X (ix2 n k) * Wc (ix2 k ⟨o + f.val, by omega⟩)) + bc (ix1 ⟨o + f.val, by omega⟩) = (∑ k : Fin 16, X (ix2 n k) * W (ix2 k f)) + b (ix1 f)
  rw [hb f ⟨o + f.val, by omega⟩ rfl]
  exact congrArg (· + b (ix1 f)) (Finset.sum_congr rfl fun k _ => by rw [hW k f ⟨o + f.val, by omega⟩ rfl])

theorem src_eq : (W1 m ρ c (Proc.devRef .tc main_v1) : S5000000.Idx → BitVec 32) = val_main_v1 (F := Ideal) (inp1 m c) := by
  dsimp only [W1, hostOps0]; after_results; rfl
theorem tgt_eq : (W1 m ρ c (Proc.devRef .tc main_v3) : S5000000.Idx → BitVec 32) = val_main_v3 (F := Ideal) (inp1 m c) := by
  dsimp only [W1, hostOps0]; after_results; rfl

theorem wcat_eq : (W1 m ρ c (Proc.devRef .tc main_v4) : S16x64.Idx → EReal) = concatenate S16x64 1 [⟨S16x16, inp3 m c⟩, ⟨S16x16, inp5 m c⟩, ⟨S16x16, inp7 m c⟩, ⟨S16x16, inp10 m c⟩] concatenates_S16x16_S16x16_S16x16_S16x16_S16x64_d1 := by
  dsimp only [W1, hostOps0]; after_results; rfl
theorem bcat_eq : (W1 m ρ c (Proc.devRef .tc main_v5) : S64.Idx → EReal) = concatenate S64 0 [⟨S16, inp4 m c⟩, ⟨S16, inp6 m c⟩, ⟨S16, inp8 m c⟩, ⟨S16, inp11 m c⟩] concatenates_S16_S16_S16_S16_S64_d0 := by
  dsimp only [W1, hostOps0]; after_results; rfl

theorem x_eq : (W1 m ρ c (Proc.devRef .tc main_arg0) : S500000x16.Idx → EReal) = inp0 m c :=
  W1_of m ρ c main_arg0 (by decide)

theorem v6_eq : (W2 m ρ c (Proc.devRef .tc main_v6) : S500000x64.Idx → EReal)
    = fused (inp0 m c)
        (concatenate S16x64 1 [⟨S16x16, inp3 m c⟩, ⟨S16x16, inp5 m c⟩, ⟨S16x16, inp7 m c⟩, ⟨S16x16, inp10 m c⟩] concatenates_S16x16_S16x16_S16x16_S16x16_S16x64_d1)
        (concatenate S64 0 [⟨S16, inp4 m c⟩, ⟨S16, inp6 m c⟩, ⟨S16, inp8 m c⟩, ⟨S16, inp11 m c⟩] concatenates_S16_S16_S16_S16_S64_d0) := by
  refine (W2_arr m ρ c 3).trans ?_
  rw [fused_final]
  show fused (W1 m ρ c (Proc.devRef .tc main_arg0)) (W1 m ρ c (Proc.devRef .tc main_v4)) (W1 m ρ c (Proc.devRef .tc main_v5)) = _
  rw [x_eq, wcat_eq, bcat_eq]

theorem v7_read : (W3 m ρ c (Proc.devRef .tc main_v7) : S500000x16.Idx → EReal) = extractStridedSlice S500000x16 ![0, 0] (W2 m ρ c (Proc.devRef .tc main_v6) : S500000x64.Idx → EReal) slices_S500000x64_S500000x16_0_0 := by
  dsimp only [W3, hostOps1]; after_results
theorem v8_read : (W3 m ρ c (Proc.devRef .tc main_v8) : S500000x16.Idx → EReal) = extractStridedSlice S500000x16 ![0, 16] (W2 m ρ c (Proc.devRef .tc main_v6) : S500000x64.Idx → EReal) slices_S500000x64_S500000x16_0_16 := by
  dsimp only [W3, hostOps1]; after_results
theorem v9_read : (W3 m ρ c (Proc.devRef .tc main_v9) : S500000x16.Idx → EReal) = extractStridedSlice S500000x16 ![0, 32] (W2 m ρ c (Proc.devRef .tc main_v6) : S500000x64.Idx → EReal) slices_S500000x64_S500000x16_0_32 := by
  dsimp only [W3, hostOps1]; after_results
theorem v10_read : (W3 m ρ c (Proc.devRef .tc main_v10) : S500000x16.Idx → EReal) = extractStridedSlice S500000x16 ![0, 48] (W2 m ρ c (Proc.devRef .tc main_v6) : S500000x64.Idx → EReal) slices_S500000x64_S500000x16_0_48 := by
  dsimp only [W3, hostOps1]; after_results

theorem k_eq : (W3 m ρ c (Proc.devRef .tc main_v7) : S500000x16.Idx → EReal) = rK m c := by
  rw [v7_read, v6_eq]
  exact slice_fused _ _ _ 0 _ _ _ (fun k f col h => (cat_cols _ _ _ _ k f col).1 h) (fun f col h => (cat_entries _ _ _ _ f col).1 h) (by omega)
theorem q_eq : (W3 m ρ c (Proc.devRef .tc main_v8) : S500000x16.Idx → EReal) = rQ m c := by
  rw [v8_read, v6_eq]
  exact slice_fused _ _ _ 16 _ _ _ (fun k f col h => (cat_cols _ _ _ _ k f col).2.1 h) (fun f col h => (cat_entries _ _ _ _ f col).2.1 h) (by omega)
theorem v_eq : (W3 m ρ c (Proc.devRef .tc main_v9) : S500000x16.Idx → EReal) = rV m c := by
  rw [v9_read, v6_eq]
  exact slice_fused _ _ _ 32 _ _ _ (fun k f col h => (cat_cols _ _ _ _ k f col).2.2.1 h) (fun f col h => (cat_entries _ _ _ _ f col).2.2.1 h) (by omega)
theorem xs_eq : (W3 m ρ c (Proc.devRef .tc main_v10) : S500000x16.Idx → EReal) = rXs m c := by
  rw [v10_read, v6_eq]
  exact slice_fused _ _ _ 48 _ _ _ (fun k f col h => (cat_cols _ _ _ _ k f col).2.2.2 h) (fun f col h => (cat_entries _ _ _ _ f col).2.2.2 h) (by omega)

end Cert.KernelIdeal.Fr

end
-- ==== Proof.KI.ValEdge.lean ====
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import proofs.«423153_j19997367730281_2_alg».proof.Proof.KI.ValDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.ReferenceIdeal.Read
open Idealize.ShloMosaic.ValueIdx

theorem lhs_edge_0 (i : S10000x16.Idx) (q : dot_S10000x16_S16x16_S10000x16_1_0_0_1_n_n.contr.Idx) :
    (dot_S10000x16_S16x16_S10000x16_1_0_0_1_n_n.lhsIdx i q 0).val = (i 0).val := by
  unfold DotDims.lhsIdx
  rw [dif_neg (show ¬(0 : Fin S10000x16.rank) ∈ dot_S10000x16_S16x16_S10000x16_1_0_0_1_n_n.lhsBatch by decide), dif_pos (show (0 : Fin S10000x16.rank) ∈ dot_S10000x16_S16x16_S10000x16_1_0_0_1_n_n.lhsNonContracting by decide)]
  rfl
theorem lhs_edge_1 (i : S10000x16.Idx) (q : dot_S10000x16_S16x16_S10000x16_1_0_0_1_n_n.contr.Idx) :
    (dot_S10000x16_S16x16_S10000x16_1_0_0_1_n_n.lhsIdx i q 1).val = (q ⟨0, by decide⟩).val :=
  dot_S10000x16_S16x16_S10000x16_1_0_0_1_n_n.lhsIdx_val_of_single rfl i q
theorem rhs_edge_0 (i : S10000x16.Idx) (q : dot_S10000x16_S16x16_S10000x16_1_0_0_1_n_n.contr.Idx) :
    (dot_S10000x16_S16x16_S10000x16_1_0_0_1_n_n.rhsIdx i q 0).val = (q ⟨0, by decide⟩).val :=
  dot_S10000x16_S16x16_S10000x16_1_0_0_1_n_n.rhsIdx_val_of_single rfl i q
theorem rhs_edge_1 (i : S10000x16.Idx) (q : dot_S10000x16_S16x16_S10000x16_1_0_0_1_n_n.contr.Idx) :
    (dot_S10000x16_S16x16_S10000x16_1_0_0_1_n_n.rhsIdx i q 1).val = (i 1).val := by
  unfold DotDims.rhsIdx
  rw [dif_neg (show ¬(1 : Fin S16x16.rank) ∈ dot_S10000x16_S16x16_S10000x16_1_0_0_1_n_n.rhsBatch by decide), dif_pos (show (1 : Fin S16x16.rank) ∈ dot_S10000x16_S16x16_S10000x16_1_0_0_1_n_n.rhsNonContracting by decide)]
  rfl

abbrev lidxE (i : S10000x16.Idx) (k : Fin 16) : S10000x16.Idx := fun a => match a with
  | ⟨0, _⟩ => ⟨(i 0).val, (i 0).isLt⟩
  | ⟨1, _⟩ => ⟨k.val, k.isLt⟩

abbrev ridxE (i : S10000x16.Idx) (k : Fin 16) : S16x16.Idx := fun a => match a with
  | ⟨0, _⟩ => ⟨k.val, k.isLt⟩
  | ⟨1, _⟩ => ⟨(i 1).val, (i 1).isLt⟩

theorem k1_pay1_apply (x0 : Vec Ideal S10000x16 .f32) (x1 : Vec Ideal S16x16 .f32) (i : S10000x16.Idx) :
    k1_pay1 (F := Ideal) x0 x1 i = ∑ k : Fin 16, x0 (lidxE i k) * x1 (ridxE i k) := by
  unfold k1_pay1
  show FloatOps.matmul dot_S10000x16_S16x16_S10000x16_1_0_0_1_n_n none x0 x1 (constant (F := Ideal) S10000x16 .f32 0x00000000#32) i = _
  rw [Ideal.matmul_constant_zero_apply, ← Equiv.sum_comp (ValueIdx.contrEquiv1 dot_S10000x16_S16x16_S10000x16_1_0_0_1_n_n 16 rfl rfl).symm]
  refine Finset.sum_congr rfl fun k _ => ?_
  have hk := ValueIdx.contrEquiv1_symm_val dot_S10000x16_S16x16_S10000x16_1_0_0_1_n_n 16 rfl rfl k
  have el : dot_S10000x16_S16x16_S10000x16_1_0_0_1_n_n.lhsIdx i ((ValueIdx.contrEquiv1 dot_S10000x16_S16x16_S10000x16_1_0_0_1_n_n 16 rfl rfl).symm k) = lidxE i k := funext fun a => Fin.ext (by
    match a with
    | ⟨0, _⟩ => exact lhs_edge_0 _ _
    | ⟨1, _⟩ => exact (lhs_edge_1 _ _).trans hk)
  have er : dot_S10000x16_S16x16_S10000x16_1_0_0_1_n_n.rhsIdx i ((ValueIdx.contrEquiv1 dot_S10000x16_S16x16_S10000x16_1_0_0_1_n_n 16 rfl rfl).symm k) = ridxE i k := funext fun a => Fin.ext (by
    match a with
    | ⟨0, _⟩ => exact (rhs_edge_0 _ _).trans hk
    | ⟨1, _⟩ => exact rhs_edge_1 _ _)
  rw [el, er]

section
variable (V : (c : Dev nD) → (b : Ref sig .tc) → Buf (Elt Ideal) ((c : Thread nD τ).loc b))

theorem hzE : (![0, 0] : Fin 2 → Nat) = fun _ => 0 := funext fun a => by fin_cases a <;> rfl

theorem idx_factsE : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

abbrev arrA (c : Dev nD) : Vec Ideal S5000000x16 .f32 := V c main_arg2
abbrev arrW (c : Dev nD) : Vec Ideal S16x16 .f32 := V c main_arg9

theorem flushedE_eq (c : Dev nD) (t : Fin cfg1.N) :
    (dat1 V c).flushed 2 t = ((cfg1.win 2).blk t).view.read (Elt Ideal) (val_main_v16 (F := Ideal) (arrA V c) (arrW V c)) := by
  show (cfg1.win 2).cut (grid1.coords t) ((dat1 V c).after 2 t) = _
  rw [after1_2]
  unfold out1_2
  rw [View.canon_unit_zero hzE]
  simp only [View.ld_unit_zero (S := S10000x16) hzE, View.ld_unit_zero (S := S16x16) hzE]
  obtain ⟨e0, e1, e2, e3, e4, e5⟩ := idx_factsE t
  funext j
  refine (k1_pay1_apply (iblk1 V c 0 t) (iblk1 V c 1 t) j).trans ?_
  refine ((val_main_v16_apply (arrA V c) (arrW V c) (((cfg1.win 2).blk t).view.emb j)).trans ?_).symm
  refine Finset.sum_congr rfl fun k _ => ?_
  show arrA V c (lidx_main_v16 (((cfg1.win 2).blk t).view.emb j) k) * arrW V c (ridx_main_v16 (((cfg1.win 2).blk t).view.emb j) k)
    = arrA V c (((cfg1.win 0).blk t).view.emb (lidxE j k)) * arrW V c (((cfg1.win 1).blk t).view.emb (ridxE j k))
  have h0 : ((cfg1.win 0).blk t).view.emb (lidxE j k) = lidx_main_v16 (((cfg1.win 2).blk t).view.emb j) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * k.val = k.val; omega
  have h1 : ((cfg1.win 1).blk t).view.emb (ridxE j k) = ridx_main_v16 (((cfg1.win 2).blk t).view.emb j) k := by
    funext a; apply Fin.ext
    match a with
    | ⟨0, _⟩ => show win1_1.index t (0 : Fin 2) * 16 + 1 * k.val = k.val; omega
    | ⟨1, _⟩ => show win1_1.index t (1 : Fin 2) * 16 + 1 * (j 1).val = win1_2.index t (1 : Fin 2) * 16 + 1 * (j 1).val; omega
  rw [h0, h1]

theorem mem_blkE (t : Fin cfg1.N) (i : S5000000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v11).slice (win1_2.rect t)).set ↔ _
  rw [View.set_slice_whole, Rect.mem_set_unit]
  exact Iff.rfl

theorem coverE (i : S5000000x16.Idx) :
    ∃ t : Fin cfg1.N, (cfg1.win 2).flush t = true ∧ i ∈ ((cfg1.win 2).blk t).view.set := by
  have hi0 : (i 0).val < 5000000 := (i 0).isLt
  have hi1 : (i 1).val < 16 := (i 1).isLt
  have hlt : (i 0).val / 10000 < cfg1.N := lt_of_lt_of_eq (by omega : (i 0).val / 10000 < 500) N_1.symm
  obtain ⟨e0, e1, e2, e3, e4, e5⟩ := idx_factsE ⟨(i 0).val / 10000, hlt⟩
  refine ⟨⟨(i 0).val / 10000, hlt⟩, flush1_2 _, ?_⟩
  rw [mem_blkE]
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ (1 : Fin 2) * 16 ≤ (i 1).val ∧ (i 1).val < win1_2.index ⟨(i 0).val / 10000, hlt⟩ (1 : Fin 2) * 16 + 16
    rw [e5]; omega

theorem finalE (c : Dev nD) : (dat1 V c).arrAt 2 cfg1.N = val_main_v16 (F := Ideal) (arrA V c) (arrW V c) :=
  (dat1 V c).arrAt_eq_of_cover 2 _ (fun t _ => flushedE_eq V c t) coverE
end

variable (m : (ℓ : Loc nD τ sig) → Buf (Elt Ideal) ℓ) (ρ : Dev nD → PrngReg) (c : Dev nD)

theorem V3_arg2 : (W3 m ρ c (Proc.devRef .tc main_arg2) : S5000000x16.Idx → EReal) = inp2 m c := by
  rw [W3_of m ρ c main_arg2 (by decide), W2_of m ρ c main_arg2 (by decide), W1_of m ρ c main_arg2 (by decide)]
theorem V3_arg9 : (W3 m ρ c (Proc.devRef .tc main_arg9) : S16x16.Idx → EReal) = inp9 m c := by
  rw [W3_of m ρ c main_arg9 (by decide), W2_of m ρ c main_arg9 (by decide), W1_of m ρ c main_arg9 (by decide)]

/-- The edge kernel's output is the reference's edge projection. -/
theorem e_eq : (W4 m ρ c (Proc.devRef .tc main_v11) : S5000000x16.Idx → EReal) = rE m c := by
  refine (W4_arr m ρ c 2).trans ((finalE (V3 m ρ) c).trans ?_)
  show val_main_v16 (F := Ideal) (W3 m ρ c (Proc.devRef .tc main_arg2) : S5000000x16.Idx → EReal) (W3 m ρ c (Proc.devRef .tc main_arg9) : S16x16.Idx → EReal)
    = val_main_v16 (F := Ideal) (inp2 m c) (inp9 m c)
  rw [V3_arg2, V3_arg9]

end Cert.KernelIdeal.Fr

end
-- ==== Proof.KI.ValMsg.lean ====
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import proofs.«423153_j19997367730281_2_alg».proof.Proof.KI.ValNode
import proofs.«423153_j19997367730281_2_alg».proof.Proof.KI.ValEdge
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.ReferenceIdeal.Read
open Idealize.ShloMosaic.ValueIdx

variable (m : (ℓ : Loc nD τ sig) → Buf (Elt Ideal) ℓ) (ρ : Dev nD → PrngReg) (c : Dev nD)

namespace Msg

def normIdx (idx : S5000000.Idx → BitVec 32) : S5000000x1.Idx → BitVec 32 :=
  broadcastInDim S5000000x1 ![0] bcast_S5000000_S5000000x1_0
    (select (cmpi .slt idx (broadcastInDim S5000000 ![] bcast_S_S5000000 (constantI S_ 32 0#32)))
      (addi idx (broadcastInDim S5000000 ![] bcast_S_S5000000 (constantI S_ 32 500000#32))) idx)

def inb (idx : S5000000.Idx → BitVec 32) : S5000000x1.Idx → BitVec 1 :=
  andi (cmpi .sge (normIdx idx) (broadcastInDim S5000000x1 ![] bcast_S_S5000000x1 (constantI S_ 32 0#32)))
    (cmpi .sle (normIdx idx) (broadcastInDim S5000000x1 ![0, 1] bcast_S1x1_S5000000x1_0_1
      (broadcastInDim S1x1 ![1] bcast_S1_S1x1_1 (constantI S1 32 499999#32))))

def take (x : S500000x16.Idx → EReal) (idx : S5000000.Idx → BitVec 32) : S5000000x16.Idx → EReal :=
  select
    (broadcastInDim S5000000x16 ![0] bcast_S5000000_S5000000x16_0
      (Host.reduce IntOp.andi (inb idx) (constantI S_ 1 1#1) reducesTo_S5000000x1_S5000000_d1 h_S_))
    (Host.gather gather_S500000x16_S5000000x1_S5000000x16_1_0_n_n_0_1_116 x (normIdx idx))
    (broadcastInDim S5000000x16 ![] bcast_S_S5000000x16 (constant (F := Ideal) S_ .f32 0x7FC00000#32))

theorem foldl_andi_one {ι : Type} (f : ι → BitVec 1) :
    ∀ (l : List ι) (init : BitVec 1), init = 1#1 → (∀ n ∈ l, f n = 1#1) → l.foldl (fun r n => IntOp.andi r (f n)) init = 1#1
  | [], init, h, _ => h
  | a :: l, init, h, hl => by
    rw [List.foldl_cons]
    exact foldl_andi_one f l _ (IntOp.andi_eq_one.2 ⟨h, hl a (List.mem_cons_self ..)⟩) (fun n hn => hl n (List.mem_cons_of_mem _ hn))

theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl]
  exact foldl_andi_one x _ _ hinit (fun i _ => hx i)

theorem norm_word (w : BitVec 32) (h0 : 0 ≤ w.toInt) (h1 : w.toInt < 500000) :
    Scalar.select (IntOp.cmpi .slt w 0#32) (IntOp.addi w 500000#32) w = w
      ∧ IntOp.cmpi .sge w 0#32 = 1#1 ∧ IntOp.cmpi .sle w 499999#32 = 1#1 := by
  have c0 : (0#32 : BitVec 32).toInt = 0 := by decide
  have c1 : (499999#32 : BitVec 32).toInt = 499999 := by decide
  refine ⟨?_, ?_, ?_⟩
  · have hz : IntOp.cmpi .slt w 0#32 = 0#1 := eq_zero_of_ne_one (fun hc => by
      have := IntOp.cmpi_slt.1 hc; rw [c0] at this; omega)
    rw [hz, select_zero]
  · exact IntOp.cmpi_sge.2 (by rw [c0]; exact h0)
  · exact IntOp.cmpi_sle.2 (by rw [c1]; omega)

theorem inb_one (idx : S5000000.Idx → BitVec 32) (h : ∀ e, 0 ≤ (idx e).toInt ∧ (idx e).toInt < 500000)
    (i : S5000000x1.Idx) : inb idx i = 1#1 := by
  obtain ⟨e, he⟩ : ∃ e : S5000000.Idx, normIdx idx i
      = Scalar.select (IntOp.cmpi .slt (idx e) 0#32) (IntOp.addi (idx e) 500000#32) (idx e) := ⟨_, rfl⟩
  obtain ⟨hn, hge, hle⟩ := norm_word (idx e) (h e).1 (h e).2
  show IntOp.andi (IntOp.cmpi .sge (normIdx idx i) 0#32) (IntOp.cmpi .sle (normIdx idx i) 499999#32) = 1#1
  rw [he, hn, hge, hle]; rfl

/-- With every index in range the masked row gather is the reference's clamped gather: the fill value is never taken. -/
theorem take_eq (x : S500000x16.Idx → EReal) (idx : S5000000.Idx → BitVec 32)
    (h : ∀ e, 0 ≤ (idx e).toInt ∧ (idx e).toInt < 500000) :
    take x idx = Host.gather gather_S500000x16_S5000000x1_S5000000x16_1_0_n_n_0_1_116 x (normIdx idx) := by
  funext j
  have hm : (broadcastInDim S5000000x16 ![0] bcast_S5000000_S5000000x16_0
      (Host.reduce IntOp.andi (inb idx) (constantI S_ 1 1#1) reducesTo_S5000000x1_S5000000_d1 h_S_) : S5000000x16.Idx → BitVec 1) j = 1#1 :=
    reduce_andi_one _ _ _ _ _ rfl (inb_one idx h)
  unfold take
  rw [select_apply, hm, select_one]

theorem cast_cast_cancel {α β : Type} (h' : α = β) (h : β = α) (v : α) : cast h (cast h' v) = v := by
  subst h'; rfl

theorem ofBuf_v1 (h1 h2 h3) (v : (main_v1 : Ref sig .tc).ty.Contents (Elt Ideal)) :
    ((StableHlo.TRef.of main_v1 h1 h2 h3 : StableHlo.TRef sig ⟨S5000000, .i32⟩).ofBuf v : S5000000.Idx → BitVec 32) = v := rfl
theorem ofBuf_v3 (h1 h2 h3) (v : (main_v3 : Ref sig .tc).ty.Contents (Elt Ideal)) :
    ((StableHlo.TRef.of main_v3 h1 h2 h3 : StableHlo.TRef sig ⟨S5000000, .i32⟩).ofBuf v : S5000000.Idx → BitVec 32) = v := rfl
theorem ofBuf_v7 (h1 h2 h3) (v : (main_v7 : Ref sig .tc).ty.Contents (Elt Ideal)) :
    ((StableHlo.TRef.of main_v7 h1 h2 h3 : StableHlo.TRef sig ⟨S500000x16, .f32⟩).ofBuf v : S500000x16.Idx → EReal) = v := rfl
theorem ofBuf_v8 (h1 h2 h3) (v : (main_v8 : Ref sig .tc).ty.Contents (Elt Ideal)) :
    ((StableHlo.TRef.of main_v8 h1 h2 h3 : StableHlo.TRef sig ⟨S500000x16, .f32⟩).ofBuf v : S500000x16.Idx → EReal) = v := rfl
theorem ofBuf_v9 (h1 h2 h3) (v : (main_v9 : Ref sig .tc).ty.Contents (Elt Ideal)) :
    ((StableHlo.TRef.of main_v9 h1 h2 h3 : StableHlo.TRef sig ⟨S500000x16, .f32⟩).ofBuf v : S500000x16.Idx → EReal) = v := rfl
theorem toBuf_v12 (h1 h2 h3) (v : S5000000x16.Idx → EReal) :
    (StableHlo.TRef.toBuf (Val := Elt Ideal) (StableHlo.TRef.of main_v12 h1 h2 h3 : StableHlo.TRef sig ⟨S5000000x16, .f32⟩) v : S5000000x16.Idx → EReal) = v := rfl
theorem toBuf_v13 (h1 h2 h3) (v : S5000000x16.Idx → EReal) :
    (StableHlo.TRef.toBuf (Val := Elt Ideal) (StableHlo.TRef.of main_v13 h1 h2 h3 : StableHlo.TRef sig ⟨S5000000x16, .f32⟩) v : S5000000x16.Idx → EReal) = v := rfl
theorem toBuf_v14 (h1 h2 h3) (v : S5000000x16.Idx → EReal) :
    (StableHlo.TRef.toBuf (Val := Elt Ideal) (StableHlo.TRef.of main_v14 h1 h2 h3 : StableHlo.TRef sig ⟨S5000000x16, .f32⟩) v : S5000000x16.Idx → EReal) = v := rfl

set_option maxHeartbeats 1000000 in
theorem w5_v12 : (W5 m ρ c (Proc.devRef .tc main_v12) : S5000000x16.Idx → EReal)
    = take (W4 m ρ c (Proc.devRef .tc main_v7)) (W4 m ρ c (Proc.devRef .tc main_v3)) := by
  dsimp only [W5, hostOps2]
  after_results_simp
  simp only [cast_cast_cancel, ofBuf_v3, ofBuf_v7, toBuf_v12]
  unfold take inb normIdx
  rfl

set_option maxHeartbeats 1000000 in
theorem w6_v13 : (W6 m ρ c (Proc.devRef .tc main_v13) : S5000000x16.Idx → EReal)
    = take (W5 m ρ c (Proc.devRef .tc main_v8)) (W5 m ρ c (Proc.devRef .tc main_v1)) := by
  dsimp only [W6, hostOps2_1]
  after_results_simp
  simp only [cast_cast_cancel, ofBuf_v1, ofBuf_v8, toBuf_v13]
  unfold take inb normIdx
  rfl

set_option maxHeartbeats 1000000 in
theorem w7_v14 : (W7 m ρ c (Proc.devRef .tc main_v14) : S5000000x16.Idx → EReal)
    = take (W6 m ρ c (Proc.devRef .tc main_v9)) (W6 m ρ c (Proc.devRef .tc main_v1)) := by
  dsimp only [W7, hostOps2_2]
  after_results_simp
  simp only [cast_cast_cancel, ofBuf_v1, ofBuf_v9, toBuf_v14]
  unfold take inb normIdx
  rfl

def msg {F : FTy → Type} [FloatOps F] (kt e qs vs : FVec F S5000000x16 .f32) : FVec F S5000000x16 .f32 :=
  mulf (Host.divf (broadcastInDim S5000000x16 ![] bcast_S_S5000000x16 (constant S_ .f32 0x3F800000#32))
      (addf (broadcastInDim S5000000x16 ![] bcast_S_S5000000x16 (constant S_ .f32 0x3F800000#32))
        (Host.exp (Host.negf (addf (addf kt e) qs))))) vs

def agg {F : FTy → Type} [FloatOps F] (tgt : IVec S5000000 32) (ms : FVec F S5000000x16 .f32) : FVec F S500000x16 .f32 :=
  Host.scatterAdd scatter_S500000x16_S5000000x1_S5000000x16_1_0_0_1
    (broadcastInDim S500000x16 ![] bcast_S_S500000x16 (constant S_ .f32 0x00000000#32))
    (broadcastInDim S5000000x1 ![0] bcast_S5000000_S5000000x1_0 tgt) ms

theorem ref_agg {F : FTy → Type} [FloatOps F] (x0 : (⟨S500000x16, .f32⟩ : BufTy).Contents (Elt F)) (x1 : (⟨S2x5000000, .i32⟩ : BufTy).Contents (Elt F))
    (x2 : (⟨S5000000x16, .f32⟩ : BufTy).Contents (Elt F)) (x3 : (⟨S16x16, .f32⟩ : BufTy).Contents (Elt F)) (x4 : (⟨S16, .f32⟩ : BufTy).Contents (Elt F)) (x5 : (⟨S16x16, .f32⟩ : BufTy).Contents (Elt F)) (x6 : (⟨S16, .f32⟩ : BufTy).Contents (Elt F))
    (x7 : (⟨S16x16, .f32⟩ : BufTy).Contents (Elt F)) (x8 : (⟨S16, .f32⟩ : BufTy).Contents (Elt F)) (x9 : (⟨S16x16, .f32⟩ : BufTy).Contents (Elt F)) :
    val_main_v49 (F := F) x0 x1 x2 x3 x4 x5 x6 x7 x8 x9
      = agg (val_main_v3 (F := F) x1) (msg (val_main_v23 (F := F) x0 x1 x3 x4) (val_main_v16 (F := F) x2 x9)
          (val_main_v31 (F := F) x0 x1 x5 x6) (val_main_v45 (F := F) x0 x1 x7 x8)) := rfl

set_option maxHeartbeats 1000000 in
theorem w8_v26 : (W8 m ρ c (Proc.devRef .tc main_v26) : S500000x16.Idx → EReal)
    = agg (F := Ideal) (W7 m ρ c (Proc.devRef .tc main_v3))
        (msg (F := Ideal) (W7 m ρ c (Proc.devRef .tc main_v12)) (W7 m ρ c (Proc.devRef .tc main_v11))
          (W7 m ρ c (Proc.devRef .tc main_v13)) (W7 m ρ c (Proc.devRef .tc main_v14))) := by
  dsimp only [W8, hostOps2_3]
  after_results_simp
  rfl

set_option maxHeartbeats 1000000 in
theorem src_ok (hidx : IdxOk m c) (e : S5000000.Idx) :
    0 ≤ (val_main_v1 (F := Ideal) (inp1 m c) e).toInt ∧ (val_main_v1 (F := Ideal) (inp1 m c) e).toInt < 500000 := by
  rw [val_main_v1_apply, val_main_v0_apply]; exact hidx _
theorem tgt_ok (hidx : IdxOk m c) (e : S5000000.Idx) :
    0 ≤ (val_main_v3 (F := Ideal) (inp1 m c) e).toInt ∧ (val_main_v3 (F := Ideal) (inp1 m c) e).toInt < 500000 := by
  rw [val_main_v3_apply, val_main_v2_apply]; exact hidx _

theorem take_k (hidx : IdxOk m c) : take (rK m c) (val_main_v3 (F := Ideal) (inp1 m c))
    = val_main_v23 (F := Ideal) (inp0 m c) (inp1 m c) (inp3 m c) (inp4 m c) :=
  (take_eq _ _ (tgt_ok m c hidx)).trans rfl
theorem take_q (hidx : IdxOk m c) : take (rQ m c) (val_main_v1 (F := Ideal) (inp1 m c))
    = val_main_v31 (F := Ideal) (inp0 m c) (inp1 m c) (inp5 m c) (inp6 m c) :=
  (take_eq _ _ (src_ok m c hidx)).trans rfl
theorem take_v (hidx : IdxOk m c) : take (rV m c) (val_main_v1 (F := Ideal) (inp1 m c))
    = val_main_v45 (F := Ideal) (inp0 m c) (inp1 m c) (inp7 m c) (inp8 m c) :=
  (take_eq _ _ (src_ok m c hidx)).trans rfl

theorem w4_v1 : (W4 m ρ c (Proc.devRef .tc main_v1) : S5000000.Idx → BitVec 32) = val_main_v1 (F := Ideal) (inp1 m c) :=
  (W4_of m ρ c main_v1 (by decide)).trans ((W3_of m ρ c main_v1 (by decide)).trans ((W2_of m ρ c main_v1 (by decide)).trans (src_eq m ρ c)))
theorem w4_v3 : (W4 m ρ c (Proc.devRef .tc main_v3) : S5000000.Idx → BitVec 32) = val_main_v3 (F := Ideal) (inp1 m c) :=
  (W4_of m ρ c main_v3 (by decide)).trans ((W3_of m ρ c main_v3 (by decide)).trans ((W2_of m ρ c main_v3 (by decide)).trans (tgt_eq m ρ c)))
theorem w4_v7 : (W4 m ρ c (Proc.devRef .tc main_v7) : S500000x16.Idx → EReal) = rK m c :=
  (W4_of m ρ c main_v7 (by decide)).trans (k_eq m ρ c)
theorem w5_v8 : (W5 m ρ c (Proc.devRef .tc main_v8) : S500000x16.Idx → EReal) = rQ m c :=
  (W5_of m ρ c main_v8 (by decide)).trans ((W4_of m ρ c main_v8 (by decide)).trans (q_eq m ρ c))
theorem w5_v1 : (W5 m ρ c (Proc.devRef .tc main_v1) : S5000000.Idx → BitVec 32) = val_main_v1 (F := Ideal) (inp1 m c) :=
  (W5_of m ρ c main_v1 (by decide)).trans (w4_v1 m ρ c)
theorem w6_v9 : (W6 m ρ c (Proc.devRef .tc main_v9) : S500000x16.Idx → EReal) = rV m c :=
  (W6_of m ρ c main_v9 (by decide)).trans ((W5_of m ρ c main_v9 (by decide)).trans ((W4_of m ρ c main_v9 (by decide)).trans (v_eq m ρ c)))
theorem w6_v1 : (W6 m ρ c (Proc.devRef .tc main_v1) : S5000000.Idx → BitVec 32) = val_main_v1 (F := Ideal) (inp1 m c) :=
  (W6_of m ρ c main_v1 (by decide)).trans (w5_v1 m ρ c)

theorem w7_v3 : (W7 m ρ c (Proc.devRef .tc main_v3) : S5000000.Idx → BitVec 32) = val_main_v3 (F := Ideal) (inp1 m c) :=
  (W7_of m ρ c main_v3 (by decide)).trans ((W6_of m ρ c main_v3 (by decide)).trans ((W5_of m ρ c main_v3 (by decide)).trans (w4_v3 m ρ c)))
theorem w7_v11 : (W7 m ρ c (Proc.devRef .tc main_v11) : S5000000x16.Idx → EReal) = rE m c :=
  (W7_of m ρ c main_v11 (by decide)).trans ((W6_of m ρ c main_v11 (by decide)).trans ((W5_of m ρ c main_v11 (by decide)).trans (e_eq m ρ c)))
theorem w7_v12 (hidx : IdxOk m c) : (W7 m ρ c (Proc.devRef .tc main_v12) : S5000000x16.Idx → EReal)
    = val_main_v23 (F := Ideal) (inp0 m c) (inp1 m c) (inp3 m c) (inp4 m c) :=
  (W7_of m ρ c main_v12 (by decide)).trans ((W6_of m ρ c main_v12 (by decide)).trans ((w5_v12 m ρ c).trans (by
    rw [w4_v7, w4_v3]; exact take_k m c hidx)))
theorem w7_v13 (hidx : IdxOk m c) : (W7 m ρ c (Proc.devRef .tc main_v13) : S5000000x16.Idx → EReal)
    = val_main_v31 (F := Ideal) (inp0 m c) (inp1 m c) (inp5 m c) (inp6 m c) :=
  (W7_of m ρ c main_v13 (by decide)).trans ((w6_v13 m ρ c).trans (by
    rw [w5_v8, w5_v1]; exact take_q m c hidx))
theorem w7_v14' (hidx : IdxOk m c) : (W7 m ρ c (Proc.devRef .tc main_v14) : S5000000x16.Idx → EReal)
    = val_main_v45 (F := Ideal) (inp0 m c) (inp1 m c) (inp7 m c) (inp8 m c) :=
  (w7_v14 m ρ c).trans (by rw [w6_v9, w6_v1]; exact take_v m c hidx)

end Msg

open Msg

/-- The gated messages summed at their targets are the reference's aggregate. -/
theorem agg_eq (hidx : IdxOk m c) : (W8 m ρ c (Proc.devRef .tc main_v26) : S500000x16.Idx → EReal) = rAgg m c := by
  rw [w8_v26, w7_v3, w7_v12 m ρ c hidx, w7_v11, w7_v13 m ρ c hidx, w7_v14' m ρ c hidx]
  exact (ref_agg _ _ _ _ _ _ _ _ _ _).symm

end Cert.KernelIdeal.Fr

end
-- ==== Proof.KI.ValLd.lean ====
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import proofs.«423153_j19997367730281_2_alg».proof.Proof.KI.ValMsg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.ReferenceIdeal.Read
open Idealize.ShloMosaic.ValueIdx

variable (m : (ℓ : Loc nD τ sig) → Buf (Elt Ideal) ℓ) (ρ : Dev nD → PrngReg) (c : Dev nD)

/-- Entry (M, l) of the [62500, 128] re-layout is node 8M + l / 16, feature l mod 16. -/
theorem relayout_apply {α : Type} (x : S500000x16.Idx → α) (M : Fin 62500) (l : Fin 128) :
    shapeCast S62500x128 x shapeCasts_S500000x16_S62500x128 (ix2 M l) = x (ix2 (nodeOf M l) (featOf l)) :=
  shapeCast_apply x shapeCasts_S500000x16_S62500x128 (ix2 M l) (ix2 (nodeOf M l) (featOf l)) (by
    rw [Shape.rowMajor_val_two, Shape.rowMajor_val_two]
    have hM : M.val < 62500 := M.isLt
    have hl : l.val < 128 := l.isLt
    show (8 * M.val + l.val / 16) * 16 + l.val % 16 = M.val * 128 + l.val
    omega)

theorem tile_apply {α : Type} (b : S16.Idx → α) (l : Fin 128) :
    shapeCast S1x128 (shapeCast S128 (broadcastInDim S8x16 ![0, 1] bcast_S1x16_S8x16_0_1 (shapeCast S1x16 b shapeCasts_S16_S1x16)) shapeCasts_S8x16_S128) shapeCasts_S128_S1x128 (ix2 0 l)
      = b (ix1 (featOf l)) := by
  have hl : l.val < 128 := l.isLt
  refine (shapeCast_a_1a_apply _ shapeCasts_S128_S1x128 0 l).trans ?_
  refine (shapeCast_apply _ shapeCasts_S8x16_S128 (ix1 l) (ix2 (⟨l.val / 16, by omega⟩ : Fin 8) (featOf l)) (by
    rw [Shape.rowMajor_val_two, Shape.rowMajor_val_one]
    show l.val / 16 * 16 + l.val % 16 = l.val
    omega)).trans ?_
  refine (broadcastInDim_apply _ bcast_S1x16_S8x16_0_1 _ _ (ix2 (0 : Fin 1) (featOf l)) (fun a => by
    match a with
    | ⟨0, _⟩ => show 0 = if (1 : Nat) = 1 then 0 else l.val / 16; rw [if_pos rfl]
    | ⟨1, _⟩ => show l.val % 16 = if (16 : Nat) = 1 then 0 else l.val % 16; rw [if_neg (by decide)])).trans ?_
  exact shapeCast_a_1a_apply b shapeCasts_S16_S1x16 0 (featOf l)

set_option maxHeartbeats 1000000 in
theorem v27_read : (W8 m ρ c (Proc.devRef .tc main_v27) : S62500x128.Idx → EReal)
    = shapeCast S62500x128 (W8 m ρ c (Proc.devRef .tc main_v26) : S500000x16.Idx → EReal) shapeCasts_S500000x16_S62500x128 := by
  dsimp only [W8, hostOps2_3]; after_results_simp <;> rfl
set_option maxHeartbeats 1000000 in
theorem v28_read : (W8 m ρ c (Proc.devRef .tc main_v28) : S62500x128.Idx → EReal)
    = shapeCast S62500x128 (W7 m ρ c (Proc.devRef .tc main_v10) : S500000x16.Idx → EReal) shapeCasts_S500000x16_S62500x128 := by
  dsimp only [W8, hostOps2_3]; after_results_simp <;> rfl
set_option maxHeartbeats 1000000 in
theorem v32_read : (W8 m ρ c (Proc.devRef .tc main_v32) : S1x128.Idx → EReal)
    = shapeCast S1x128 (shapeCast S128 (broadcastInDim S8x16 ![0, 1] bcast_S1x16_S8x16_0_1 (shapeCast S1x16 (W7 m ρ c (Proc.devRef .tc main_arg12) : S16.Idx → EReal) shapeCasts_S16_S1x16)) shapeCasts_S8x16_S128) shapeCasts_S128_S1x128 := by
  dsimp only [W8, hostOps2_3]; after_results_simp <;> rfl

theorem xs_carried : (W7 m ρ c (Proc.devRef .tc main_v10) : S500000x16.Idx → EReal) = rXs m c :=
  (W7_of m ρ c main_v10 (by decide)).trans ((W6_of m ρ c main_v10 (by decide)).trans ((W5_of m ρ c main_v10 (by decide)).trans
    ((W4_of m ρ c main_v10 (by decide)).trans (xs_eq m ρ c))))

theorem bias_carried : (W7 m ρ c (Proc.devRef .tc main_arg12) : S16.Idx → EReal) = inp12 m c :=
  (W7_of m ρ c main_arg12 (by decide)).trans ((W6_of m ρ c main_arg12 (by decide)).trans ((W5_of m ρ c main_arg12 (by decide)).trans
    ((W4_of m ρ c main_arg12 (by decide)).trans ((W3_of m ρ c main_arg12 (by decide)).trans ((W2_of m ρ c main_arg12 (by decide)).trans
      (W1_of m ρ c main_arg12 (by decide)))))))

theorem aggld_apply (hidx : IdxOk m c) (M : Fin 62500) (l : Fin 128) :
    (W8 m ρ c (Proc.devRef .tc main_v27) : S62500x128.Idx → EReal) (ix2 M l) = rAgg m c (ix2 (nodeOf M l) (featOf l)) := by
  rw [v27_read, agg_eq m ρ c hidx]
  exact relayout_apply _ M l
theorem xsld_apply (M : Fin 62500) (l : Fin 128) :
    (W8 m ρ c (Proc.devRef .tc main_v28) : S62500x128.Idx → EReal) (ix2 M l) = rXs m c (ix2 (nodeOf M l) (featOf l)) := by
  rw [v28_read, xs_carried]
  exact relayout_apply _ M l
theorem biasld_apply (l : Fin 128) :
    (W8 m ρ c (Proc.devRef .tc main_v32) : S1x128.Idx → EReal) (ix2 0 l) = inp12 m c (ix1 (featOf l)) := by
  rw [v32_read, bias_carried]
  exact tile_apply _ l

end Cert.KernelIdeal.Fr

end
-- ==== Proof.Math.lean ====
import Idealize.ShloMosaic.PureOps.Ideal
import Mathlib.Algebra.BigOperators.Fin
import Mathlib.Algebra.BigOperators.Intervals
import Mathlib.Tactic.FieldSimp
import Mathlib.Tactic.Ring
import Mathlib.Tactic.NormNum

noncomputable section

namespace Cert.GnnMath

open Idealize.ShloMosaic
open scoped BigOperators

def IsReal (x : EReal) : Prop := ∃ r : ℝ, x = (r : EReal)

namespace IsReal

theorem coe (r : ℝ) : IsReal (r : EReal) := ⟨r, rfl⟩

theorem zero : IsReal (0 : EReal) := ⟨0, rfl⟩

theorem one : IsReal (1 : EReal) := ⟨1, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem sum {ι : Type*} (s : Finset ι) (f : ι → EReal) (h : ∀ i ∈ s, IsReal (f i)) :
    IsReal (∑ i ∈ s, f i) :=
  Finset.sum_induction f IsReal (fun _ _ => add) zero h

theorem exp {x : EReal} (hx : IsReal x) : IsReal (Ideal.exp x) := by
  obtain ⟨r, rfl⟩ := hx; exact ⟨Real.exp r, Ideal.exp_coe r⟩

end IsReal

theorem div_coe_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

theorem hostGate_coe (s : ℝ) :
    FloatOps.hostDivf (F := Ideal) (φ := .f32) (1 : EReal)
        (FloatOps.addf (F := Ideal) (φ := .f32) (1 : EReal)
          (FloatOps.hostUnary (F := Ideal) .exp (φ := .f32) (FloatOps.hostNegf (F := Ideal) (φ := .f32) (s : EReal))))
      = (((1 + Real.exp (-s))⁻¹ : ℝ) : EReal) :=
  Ideal.logistic_coe s

theorem ofBits_zero : Ideal.ofBits .f32 0#32 = 0 := by
  simp [Ideal.ofBits, Ideal.ieee]

theorem IsReal.ofBits_zero : Ideal.ofBits .f32 0#32 = 0 := Cert.GnnMath.ofBits_zero

theorem ofBits_one : Ideal.ofBits .f32 0x3F800000#32 = ((1 : ℝ) : EReal) := by
  simp [Ideal.ofBits, Ideal.ieee, -EReal.coe_mul]; norm_num

theorem ofBits_N : Ideal.ofBits .f32 0x48F42400#32 = ((500000 : ℝ) : EReal) := by
  simp [Ideal.ofBits, Ideal.ieee, -EReal.coe_mul]; norm_num

theorem hostGate_lit_coe (s : ℝ) :
    FloatOps.hostDivf (F := Ideal) (φ := .f32) (FloatOps.ofBits .f32 0x3F800000#32)
        (FloatOps.addf (FloatOps.ofBits .f32 0x3F800000#32) (FloatOps.hostUnary .exp (FloatOps.hostNegf (s : EReal))))
      = (((1 + Real.exp (-s))⁻¹ : ℝ) : EReal) := by
  rw [Ideal.ofBits_def, ofBits_one, EReal.coe_one]
  exact hostGate_coe s

theorem IsReal.hostGate_lit {x : EReal} (hx : IsReal x) :
    IsReal (FloatOps.hostDivf (F := Ideal) (φ := .f32) (FloatOps.ofBits .f32 0x3F800000#32)
        (FloatOps.addf (FloatOps.ofBits .f32 0x3F800000#32) (FloatOps.hostUnary .exp (FloatOps.hostNegf x)))) := by
  obtain ⟨s, rfl⟩ := hx; exact ⟨_, hostGate_lit_coe s⟩

theorem coe_sum {ι : Type*} (s : Finset ι) (a : ι → ℝ) :
    ∑ i ∈ s, (a i : EReal) = ((∑ i ∈ s, a i : ℝ) : EReal) := by
  classical
  refine Finset.induction_on s (by simp) ?_
  intro i s hi ih
  rw [Finset.sum_insert hi, Finset.sum_insert hi, ih, EReal.coe_add]

/-- Over the reals the mean of the squares minus the squared mean is the mean squared deviation. -/
theorem var_real {ι : Type*} [Fintype ι] (N : ℝ) (hN : (Fintype.card ι : ℝ) = N) (hN0 : N ≠ 0) (a : ι → ℝ) (m : ℝ)
    (hm : m = (∑ i, a i) / N) :
    (∑ i, a i * a i) / N - m * m = (∑ i, (a i - m) * (a i - m)) / N := by
  have h1 : ∑ i, (a i - m) * (a i - m) = ∑ i, a i * a i - 2 * m * ∑ i, a i + N * (m * m) := by
    have h : ∀ i, (a i - m) * (a i - m) = a i * a i - 2 * m * a i + m * m := fun i => by ring
    simp only [h, Finset.sum_add_distrib, Finset.sum_sub_distrib, ← Finset.mul_sum, Finset.sum_const,
      Finset.card_univ, nsmul_eq_mul, hN]
    ring
  have hS : ∑ i, a i = m * N := by rw [hm]; field_simp
  rw [h1, hS]
  field_simp
  ring

/-- The same over the extended reals when every entry is real: both sides are one real number. -/
theorem var_identity {ι : Type*} [Fintype ι] (N : ℝ) (hN : (Fintype.card ι : ℝ) = N) (hN0 : N ≠ 0) (a : ι → ℝ)
    (μ : EReal) (hμ : μ = Ideal.div (0 + ∑ i, (a i : EReal)) (N : EReal)) :
    Ideal.div (0 + ∑ i, ((a i : EReal) * (a i : EReal))) (N : EReal) - μ * μ
      = Ideal.div (0 + ∑ i, (((a i : EReal) - μ) * ((a i : EReal) - μ))) (N : EReal) := by
  have hμr : μ = (((∑ i, a i) / N : ℝ) : EReal) := by
    rw [hμ, zero_add, coe_sum, div_coe_coe _ _ hN0]
  rw [hμr]
  simp only [← EReal.coe_mul, ← EReal.coe_sub, zero_add, coe_sum]
  rw [div_coe_coe _ _ hN0, div_coe_coe _ _ hN0, ← EReal.coe_sub, var_real N hN hN0 a _ rfl]

theorem var_identity_500000 (a : Fin 500000 → ℝ) (μ : EReal)
    (hμ : μ = Ideal.div (0 + ∑ k : Fin 500000, (a k : EReal)) ((500000 : ℝ) : EReal)) :
    Ideal.div (0 + ∑ k : Fin 500000, ((a k : EReal) * (a k : EReal))) ((500000 : ℝ) : EReal) - μ * μ
      = Ideal.div (0 + ∑ k : Fin 500000, (((a k : EReal) - μ) * ((a k : EReal) - μ))) ((500000 : ℝ) : EReal) :=
  var_identity (500000 : ℝ) (by rw [Fintype.card_fin]; norm_num) (by norm_num) a μ hμ

/-- A sum over m·n consecutive indices, taken residue class by residue class. -/
theorem sum_regroup (m n : ℕ) (f : ℕ → EReal) :
    ∑ g : Fin n, ∑ M : Fin m, f (n * M.val + g.val) = ∑ k : Fin (m * n), f k.val := by
  rw [Finset.sum_comm]
  calc ∑ M : Fin m, ∑ g : Fin n, f (n * M.val + g.val)
      = ∑ x : Fin m × Fin n, f (n * x.1.val + x.2.val) :=
        (Fintype.sum_prod_type' (fun (M : Fin m) (g : Fin n) => f (n * M.val + g.val))).symm
    _ = ∑ x : Fin m × Fin n, f (finProdFinEquiv x).val :=
        Fintype.sum_congr _ _ (fun x => by rw [finProdFinEquiv_apply_val, add_comm])
    _ = ∑ k : Fin (m * n), f k.val := Equiv.sum_comp finProdFinEquiv (fun k => f k.val)

theorem sum_regroup8 (f : ℕ → EReal) :
    ∑ g : Fin 8, ∑ M : Fin 62500, f (8 * M.val + g.val) = ∑ n : Fin 500000, f n.val :=
  sum_regroup 62500 8 f

theorem sum_range_mask {a b : ℕ} (h : a ≤ b) (f : ℕ → EReal) :
    ∑ k ∈ Finset.range b, (if k < a then f k else 0) = ∑ k ∈ Finset.range a, f k := by
  rw [← Finset.sum_filter]
  congr 1
  ext k
  simp only [Finset.mem_filter, Finset.mem_range]
  omega

theorem sum_blocks_gen (a m n : ℕ) (h : a ≤ m * n) (f : ℕ → EReal) :
    ∑ M : Fin a, f M.val
      = ∑ t : Fin m, ∑ r : Fin n, (if n * t.val + r.val < a then f (n * t.val + r.val) else 0) := by
  rw [Finset.sum_comm, sum_regroup m n (fun k => if k < a then f k else 0),
    ← Finset.sum_range (fun k => if k < a then f k else 0), sum_range_mask h, Finset.sum_range]

/-- 62500 terms summed in twenty blocks of 3200, the last block cut off at the end. -/
theorem sum_blocks (f : ℕ → EReal) :
    ∑ M : Fin 62500, f M.val
      = ∑ t : Fin 20, ∑ r : Fin 3200, (if 3200 * t.val + r.val < 62500 then f (3200 * t.val + r.val) else 0) :=
  sum_blocks_gen 62500 20 3200 (by norm_num) f

def accFold (B : ℕ → EReal) : ℕ → EReal
  | 0 => 0 + B 0
  | n + 1 => accFold B n + B (n + 1)

theorem accFold_eq (B : ℕ → EReal) (n : ℕ) : accFold B n = ∑ t ∈ Finset.range (n + 1), B t := by
  induction n with
  | zero => simp [accFold]
  | succ n ih => rw [accFold, ih, Finset.sum_range_succ _ (n + 1)]

theorem accFold_19 (B : ℕ → EReal) : accFold B 19 = ∑ t : Fin 20, B t.val := by
  rw [accFold_eq, Finset.sum_range]

end Cert.GnnMath

end
-- ==== Proof.KI.ValAcc.lean ====
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import proofs.«423153_j19997367730281_2_alg».proof.Proof.KI.ValLd
import proofs.«423153_j19997367730281_2_alg».proof.Proof.Math
import Idealize.ShloMosaic.Lib.ValueIdx
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

theorem mask_iff (a b : ℕ) (ha : a < 20) (hb : b < 3200) :
    IntOp.cmpi .slt (IntOp.addi (Scalar.muli (BitVec.ofNat 32 a) 3200#32) (BitVec.ofNat 32 (0 * (![3200, 128] : Fin 2 → ℕ) 0 + b))) 62500#32 = (1 : BitVec 1)
      ↔ a * 3200 + b < 62500 := by
  refine ⟨mask_lt a b ha hb, fun h => ?_⟩
  have hx : (IntOp.addi (Scalar.muli (BitVec.ofNat 32 a) 3200#32) (BitVec.ofNat 32 (0 * (![3200, 128] : Fin 2 → ℕ) 0 + b))).toNat = a * 3200 + b := by
    unfold IntOp.addi Scalar.muli IntOp.muli
    simp only [BitVec.toNat_add, BitVec.toNat_mul, BitVec.toNat_ofNat, Matrix.cons_val_zero]
    omega
  generalize IntOp.addi (Scalar.muli (BitVec.ofNat 32 a) 3200#32) (BitVec.ofNat 32 (0 * (![3200, 128] : Fin 2 → ℕ) 0 + b)) = x at hx
  unfold IntOp.cmpi
  dsimp only
  have hxi : x.toInt = ((a * 3200 + b : ℕ) : ℤ) := by
    rw [BitVec.toInt_eq_toNat_cond, hx, if_pos (by omega)]
  have h62 : (62500#32 : BitVec 32).toInt = 62500 := by decide
  have hs : BitVec.slt x 62500#32 = true := by
    rw [BitVec.slt_iff_toInt_lt, hxi, h62]; omega
  rw [hs]; rfl

variable {F : FTy → Type} [FloatOps F]

theorem k2_pay4_at (i : grid2.Coords) (X X' : Vec F S3200x128 .f32) (r : Vec F S1x128 .f32) (j : S3200x128.Idx) :
    k2_pay4 i X X' r j = if (i 0).val * 3200 + (j 0).val < 62500 then k2_pay3 X X' r j else FloatOps.ofBits .f32 0#32 := by
  unfold k2_pay4
  simp only [select, cmpi, addi, broadcast, iota, List.foldl]
  unfold Scalar.select
  by_cases hm : IntOp.cmpi .slt (IntOp.addi (Scalar.muli (BitVec.ofNat 32 (i 0).val) 3200#32) (BitVec.ofNat 32 (0 * (![3200, 128] : Fin 2 → ℕ) 0 + (j 0).val))) 62500#32 = (1 : BitVec 1)
  · rw [if_pos hm, if_pos ((mask_iff _ _ (i 0).isLt (j 0).isLt).mp hm)]
  · rw [if_neg hm, if_neg (fun h => hm ((mask_iff _ _ (i 0).isLt (j 0).isLt).mpr h))]

theorem coord2 : ∀ t : Fin cfg2.N, (grid2.coords t 0).val = t.val :=
  (by decide +kernel : ∀ t : Fin grid2.N, (grid2.coords t 0).val = t.val)

theorem index2 : ∀ t : Fin cfg2.N, win2_0.index t 0 = t.val ∧ win2_0.index t 1 = 0 ∧ win2_1.index t 0 = t.val ∧ win2_1.index t 1 = 0
    ∧ win2_2.index t 0 = 0 ∧ win2_2.index t 1 = 0 ∧ win2_4.index t 0 = 0 ∧ win2_4.index t 1 = 0 ∧ win2_5.index t 0 = 0 ∧ win2_5.index t 1 = 0 :=
  (by decide +kernel : ∀ t : Fin grid2.N, _)

section
variable (V : (c : Dev nD) → (b : Ref sig .tc) → Buf (Elt F) ((c : Thread nD τ).loc b))

theorem zb2_0_at (c : Dev nD) (t : Fin cfg2.N) (k : Fin 3200) (l : Fin 128) (h : 3200 * t.val + k.val < 62500) :
    zb2_0 V c t (ix2 k l) = (V c (Pipeline.arrRef spec2 0) : S62500x128.Idx → Elt F .f32) (ix2 ⟨3200 * t.val + k.val, h⟩ l) := by
  have hm : (cfg2.win 0).moved (cfg2.grid.coords t) (ix2 k l) = true :=
    moved2_0 _ (ix2 k l) (by rw [coord2 t]; show t.val * 3200 + k.val < 62500; omega)
  unfold zb2_0 Window.fill
  rw [dif_pos hm]
  unfold iblk2
  show (V c (Pipeline.arrRef spec2 0) : S62500x128.Idx → Elt F .f32) (((cfg2.win 0).blk t).view.emb _) = _
  refine congrArg _ (funext fun a => Fin.ext ?_)
  obtain ⟨e0, e1, -⟩ := index2 t
  match a with
  | ⟨0, _⟩ => show win2_0.index t 0 * 3200 + 1 * k.val = 3200 * t.val + k.val; rw [e0]; omega
  | ⟨1, _⟩ => show win2_0.index t 1 * 128 + 1 * l.val = l.val; rw [e1]; omega

end

section
variable (V : (c : Dev nD) → (b : Ref sig .tc) → Buf (Elt F) ((c : Thread nD τ).loc b))

theorem zb2_1_at (c : Dev nD) (t : Fin cfg2.N) (k : Fin 3200) (l : Fin 128) (h : 3200 * t.val + k.val < 62500) :
    zb2_1 V c t (ix2 k l) = (V c (Pipeline.arrRef spec2 1) : S62500x128.Idx → Elt F .f32) (ix2 ⟨3200 * t.val + k.val, h⟩ l) := by
  have hm : (cfg2.win 1).moved (cfg2.grid.coords t) (ix2 k l) = true :=
    moved2_1 _ (ix2 k l) (by rw [coord2 t]; show t.val * 3200 + k.val < 62500; omega)
  unfold zb2_1 Window.fill
  rw [dif_pos hm]
  unfold iblk2
  show (V c (Pipeline.arrRef spec2 1) : S62500x128.Idx → Elt F .f32) (((cfg2.win 1).blk t).view.emb _) = _
  refine congrArg _ (funext fun a => Fin.ext ?_)
  obtain ⟨-, -, e0, e1, -⟩ := index2 t
  match a with
  | ⟨0, _⟩ => show win2_1.index t 0 * 3200 + 1 * k.val = 3200 * t.val + k.val; rw [e0]; omega
  | ⟨1, _⟩ => show win2_1.index t 1 * 128 + 1 * l.val = l.val; rw [e1]; omega

theorem row2_at (c : Dev nD) (t : Fin cfg2.N) (l : Fin 128) :
    row2 V c t (ix2 0 l) = (V c (Pipeline.arrRef spec2 2) : S1x128.Idx → Elt F .f32) (ix2 0 l) := by
  unfold row2 iblk2
  show (V c (Pipeline.arrRef spec2 2) : S1x128.Idx → Elt F .f32) (((cfg2.win 2).blk t).view.emb _) = _
  refine congrArg _ (funext fun a => Fin.ext ?_)
  obtain ⟨-, -, -, -, e0, e1, -⟩ := index2 t
  match a with
  | ⟨0, _⟩ => show win2_2.index t 0 * 1 + 1 * 0 = 0; rw [e0]
  | ⟨1, _⟩ => show win2_2.index t 1 * 128 + 1 * l.val = l.val; rw [e1]; omega

end

theorem k2_pay3_at (a b : Vec Ideal S3200x128 .f32) (r : Vec Ideal S1x128 .f32) (k : Fin 3200) (l : Fin 128) :
    (k2_pay3 a b r : S3200x128.Idx → EReal) (ix2 k l) = (a (ix2 k l) + b (ix2 k l)) + r (ix2 0 l) := by
  rw [k2_pay3_apply]
  rw [broadcastTo_apply r broadcasts_S1x128_S3200x128 (ix2 k l) (ix2 0 l) (fun a => match a with
    | ⟨0, _⟩ => by show 0 = if (1 : Nat) = 1 then 0 else _; rw [if_pos rfl]
    | ⟨1, _⟩ => by show l.val = if (128 : Nat) = 1 then 0 else l.val; rw [if_neg (by decide)])]
  rfl

theorem sumStep_at (i : grid2.Coords) (a b : Vec Ideal S3200x128 .f32) (r acc : Vec Ideal S1x128 .f32) (l : Fin 128) :
    (sumStep i a b r acc : S1x128.Idx → EReal) (ix2 0 l)
      = acc (ix2 0 l) + ∑ k : Fin 3200, (k2_pay4 i a b r : S3200x128.Idx → EReal) (ix2 k l) := by
  unfold sumStep k2_pay5
  simp only [addf, shapeCast_same]
  rw [shapeCast_apply _ shapeCasts_S128_S1x128 (ix2 0 l) (ix1 l)
    (by rewrite [Shape.rowMajor_val_two, Shape.rowMajor_val_one]; show l.val = 0 * 128 + l.val; omega)]
  refine (congrArg (fun z => acc (ix2 0 l) + z)
    (Ideal.multiReduction_add_single (k2_pay4 i a b r) _ reduces_S3200x128_S128 _ _ (ix1 l))).trans ?_
  refine congrArg (fun z => acc (ix2 0 l) + z) (Finset.sum_congr rfl fun k _ => congrArg (k2_pay4 i a b r) (funext fun a => ?_))
  match a with
  | ⟨0, _⟩ => rfl
  | ⟨1, _⟩ => rfl

theorem sqStep_at (i : grid2.Coords) (a b : Vec Ideal S3200x128 .f32) (r acc : Vec Ideal S1x128 .f32) (l : Fin 128) :
    (sqStep i a b r acc : S1x128.Idx → EReal) (ix2 0 l)
      = acc (ix2 0 l) + ∑ k : Fin 3200, (k2_pay4 i a b r : S3200x128.Idx → EReal) (ix2 k l) * (k2_pay4 i a b r : S3200x128.Idx → EReal) (ix2 k l) := by
  unfold sqStep k2_pay6
  simp only [addf, shapeCast_same]
  rw [shapeCast_apply _ shapeCasts_S128_S1x128 (ix2 0 l) (ix1 l)
    (by rewrite [Shape.rowMajor_val_two, Shape.rowMajor_val_one]; show l.val = 0 * 128 + l.val; omega)]
  refine (congrArg (fun z => acc (ix2 0 l) + z)
    (Ideal.multiReduction_add_single (mulf (k2_pay4 i a b r) (k2_pay4 i a b r)) _ reduces_S3200x128_S128 _ _ (ix1 l))).trans ?_
  refine congrArg (fun z => acc (ix2 0 l) + z) (Finset.sum_congr rfl fun k _ =>
    congrArg (mulf (k2_pay4 i a b r) (k2_pay4 i a b r)) (funext fun a => ?_))
  match a with
  | ⟨0, _⟩ => rfl
  | ⟨1, _⟩ => rfl

theorem mem_blk2_4 (t : Fin cfg2.N) (i : S1x128.Idx) : i ∈ ((cfg2.win 4).blk t).view.set := by
  show i ∈ ((View.whole main_v33_1).slice (win2_4.rect t)).set
  rw [View.set_slice_whole, Rect.mem_set_unit]
  obtain ⟨e0, e1⟩ : win2_4.index t 0 = 0 ∧ win2_4.index t 1 = 0 := ⟨(index2 t).2.2.2.2.2.2.1, (index2 t).2.2.2.2.2.2.2.1⟩
  intro a
  match a with
  | ⟨0, _⟩ =>
    have h0 : (i 0).val < 1 := (i 0).isLt
    show win2_4.index t 0 * 1 ≤ (i 0).val ∧ (i 0).val < win2_4.index t 0 * 1 + 1
    rw [e0]; omega
  | ⟨1, _⟩ =>
    have h1 : (i 1).val < 128 := (i 1).isLt
    show win2_4.index t 1 * 128 ≤ (i 1).val ∧ (i 1).val < win2_4.index t 1 * 128 + 128
    rw [e1]; omega

theorem mem_blk2_5 (t : Fin cfg2.N) (i : S1x128.Idx) : i ∈ ((cfg2.win 5).blk t).view.set := by
  show i ∈ ((View.whole main_v33_2).slice (win2_5.rect t)).set
  rw [View.set_slice_whole, Rect.mem_set_unit]
  obtain ⟨e0, e1⟩ : win2_5.index t 0 = 0 ∧ win2_5.index t 1 = 0 := ⟨(index2 t).2.2.2.2.2.2.2.2.1, (index2 t).2.2.2.2.2.2.2.2.2⟩
  intro a
  match a with
  | ⟨0, _⟩ =>
    have h0 : (i 0).val < 1 := (i 0).isLt
    show win2_5.index t 0 * 1 ≤ (i 0).val ∧ (i 0).val < win2_5.index t 0 * 1 + 1
    rw [e0]; omega
  | ⟨1, _⟩ =>
    have h1 : (i 1).val < 128 := (i 1).isLt
    show win2_5.index t 1 * 128 ≤ (i 1).val ∧ (i 1).val < win2_5.index t 1 * 128 + 128
    rw [e1]; omega

section
variable (V : (c : Dev nD) → (b : Ref sig .tc) → Buf (Elt F) ((c : Thread nD τ).loc b))

theorem arrAt2_4 (c : Dev nD) :
    ((dat2 V c).arrAt 4 cfg2.N : S1x128.Idx → Elt F .f32) = accS V c 19 (by decide) := by
  refine (dat2 V c).arrAt_eq_of_cover 4 (accS V c 19 (by decide)) (fun t ht => ?_)
    (fun i => ⟨⟨19, by decide⟩, (flush2_4 _).mpr (by decide), mem_blk2_4 _ i⟩)
  have hN : t.val < 20 := lt_of_lt_of_eq t.isLt (show cfg2.N = 20 from N_2)
  have h19 : t.val = 19 := by have := (flush2_4 t).mp ht; omega
  obtain ⟨e0, e1⟩ : win2_4.index t 0 = 0 ∧ win2_4.index t 1 = 0 := ⟨(index2 t).2.2.2.2.2.2.1, (index2 t).2.2.2.2.2.2.2.1⟩
  show (cfg2.win 4).cut (cfg2.grid.coords t) ((dat2 V c).after 4 t) = _
  rw [after2_4]
  obtain ⟨tv, htv⟩ := t
  cases h19
  funext j
  show accS V c 19 _ _ = accS V c 19 _ (((cfg2.win 4).blk ⟨19, htv⟩).view.emb j)
  refine congrArg _ (funext fun a => Fin.ext ?_)
  match a with
  | ⟨0, _⟩ => show (j 0).val = win2_4.index ⟨19, htv⟩ 0 * 1 + 1 * (j 0).val; rw [e0]; omega
  | ⟨1, _⟩ => show (j 1).val = win2_4.index ⟨19, htv⟩ 1 * 128 + 1 * (j 1).val; rw [e1]; omega

theorem arrAt2_5 (c : Dev nD) :
    ((dat2 V c).arrAt 5 cfg2.N : S1x128.Idx → Elt F .f32) = accQ V c 19 (by decide) := by
  refine (dat2 V c).arrAt_eq_of_cover 5 (accQ V c 19 (by decide)) (fun t ht => ?_)
    (fun i => ⟨⟨19, by decide⟩, (flush2_5 _).mpr (by decide), mem_blk2_5 _ i⟩)
  have hN : t.val < 20 := lt_of_lt_of_eq t.isLt (show cfg2.N = 20 from N_2)
  have h19 : t.val = 19 := by have := (flush2_5 t).mp ht; omega
  obtain ⟨e0, e1⟩ : win2_5.index t 0 = 0 ∧ win2_5.index t 1 = 0 := ⟨(index2 t).2.2.2.2.2.2.2.2.1, (index2 t).2.2.2.2.2.2.2.2.2⟩
  show (cfg2.win 5).cut (cfg2.grid.coords t) ((dat2 V c).after 5 t) = _
  rw [after2_5]
  obtain ⟨tv, htv⟩ := t
  cases h19
  funext j
  show accQ V c 19 _ _ = accQ V c 19 _ (((cfg2.win 5).blk ⟨19, htv⟩).view.emb j)
  refine congrArg _ (funext fun a => Fin.ext ?_)
  match a with
  | ⟨0, _⟩ => show (j 0).val = win2_5.index ⟨19, htv⟩ 0 * 1 + 1 * (j 0).val; rw [e0]; omega
  | ⟨1, _⟩ => show (j 1).val = win2_5.index ⟨19, htv⟩ 1 * 128 + 1 * (j 1).val; rw [e1]; omega

end

open Cert.ReferenceIdeal.Read
open Cert.GnnMath

section
variable (m : (ℓ : Loc nD τ sig) → Buf (Elt Ideal) ℓ) (ρ : Dev nD → PrngReg) (c : Dev nD)

theorem rH_at (n : Fin 500000) (f : Fin 16) :
    rH m c (ix2 n f) = (rAgg m c (ix2 n f) + rXs m c (ix2 n f)) + inp12 m c (ix1 f) := by
  show val_main_v57 (F := Ideal) _ _ _ _ _ _ _ _ _ _ _ _ _ (ix2 n f) = _
  rw [val_main_v57_apply, val_main_v54_apply, val_main_v56_apply, val_main_v55_apply]
  refine congrArg (fun z => (rAgg m c (ix2 n f) + rXs m c (ix2 n f)) + inp12 m c z) (funext fun a => ?_)
  match a with
  | ⟨0, _⟩ => rfl

def Hrow (l : Fin 128) (M : ℕ) : EReal := if h : M < 62500 then rH m c (ix2 (nodeOf ⟨M, h⟩ l) (featOf l)) else 0

def Bsum (l : Fin 128) (t : ℕ) : EReal := ∑ r : Fin 3200, if 3200 * t + r.val < 62500 then Hrow m c l (3200 * t + r.val) else 0
def Bsq (l : Fin 128) (t : ℕ) : EReal :=
  ∑ r : Fin 3200, if 3200 * t + r.val < 62500 then Hrow m c l (3200 * t + r.val) * Hrow m c l (3200 * t + r.val) else 0

theorem hrow_at (hidx : IdxOk m c) (t : Fin cfg2.N) (k : Fin 3200) (l : Fin 128) :
    (k2_pay4 (grid2.coords t) (zb2_0 (V8 m ρ) c t) (zb2_1 (V8 m ρ) c t) (row2 (V8 m ρ) c t) : S3200x128.Idx → EReal) (ix2 k l)
      = if 3200 * t.val + k.val < 62500 then Hrow m c l (3200 * t.val + k.val) else 0 := by
  rw [k2_pay4_at, coord2 t]
  by_cases h : 3200 * t.val + k.val < 62500
  · rw [if_pos (show t.val * 3200 + k.val < 62500 by omega), if_pos h, k2_pay3_at,
      zb2_0_at (V8 m ρ) c t k l h, zb2_1_at (V8 m ρ) c t k l h, row2_at (V8 m ρ) c t l]
    unfold Hrow
    rw [dif_pos h, rH_at]
    exact congrArg₂ (· + ·) (congrArg₂ (· + ·) (aggld_apply m ρ c hidx ⟨_, h⟩ l) (xsld_apply m ρ c ⟨_, h⟩ l)) (biasld_apply m ρ c l)
  · rw [if_neg (show ¬ t.val * 3200 + k.val < 62500 by omega), if_neg h]
    exact Cert.GnnMath.ofBits_zero

/-- The lane sums after block n are the row sums of blocks 0 … n added up. -/
theorem accS_fold (hidx : IdxOk m c) (l : Fin 128) : ∀ (n : ℕ) (hn : n < cfg2.N),
    (accS (V8 m ρ) c n hn : S1x128.Idx → EReal) (ix2 0 l) = accFold (Bsum m c l) n
  | 0, hn => by
    rw [accS_zero, sumStep_at, Finset.sum_congr rfl (fun k _ => hrow_at m ρ c hidx ⟨0, hn⟩ k l)]
    exact congrArg (· + Bsum m c l 0) Cert.GnnMath.ofBits_zero
  | n + 1, hn => by
    rw [accS_succ, sumStep_at, accS_fold hidx l n _, Finset.sum_congr rfl (fun k _ => hrow_at m ρ c hidx ⟨n + 1, hn⟩ k l)]
    rfl

theorem sq_ite (p : Prop) [Decidable p] (x : EReal) : (if p then x else 0) * (if p then x else 0) = if p then x * x else 0 := by
  split
  · rfl
  · exact mul_zero 0

theorem accQ_fold (hidx : IdxOk m c) (l : Fin 128) : ∀ (n : ℕ) (hn : n < cfg2.N),
    (accQ (V8 m ρ) c n hn : S1x128.Idx → EReal) (ix2 0 l) = accFold (Bsq m c l) n
  | 0, hn => by
    rw [accQ_zero, sqStep_at, Finset.sum_congr rfl (fun k _ => by rw [hrow_at m ρ c hidx ⟨0, hn⟩ k l, sq_ite])]
    exact congrArg (· + Bsq m c l 0) Cert.GnnMath.ofBits_zero
  | n + 1, hn => by
    rw [accQ_succ, sqStep_at, accQ_fold hidx l n _,
      Finset.sum_congr rfl (fun k _ => by rw [hrow_at m ρ c hidx ⟨n + 1, hn⟩ k l, sq_ite])]
    rfl

theorem sum_apply (hidx : IdxOk m c) (l : Fin 128) :
    (W9 m ρ c (Proc.devRef .tc main_v33_1) : S1x128.Idx → EReal) (ix2 0 l) = ∑ M : Fin 62500, rH m c (ix2 (nodeOf M l) (featOf l)) := by
  have e1 : (W9 m ρ c (Proc.devRef .tc main_v33_1) : S1x128.Idx → EReal) = accS (V8 m ρ) c 19 (by decide) :=
    (W9_arr m ρ c 4).trans (arrAt2_4 (V8 m ρ) c)
  rw [e1, accS_fold m ρ c hidx l 19 _, accFold_19]
  refine (sum_blocks (Hrow m c l)).symm.trans (Finset.sum_congr rfl fun M _ => ?_)
  unfold Hrow
  rw [dif_pos M.isLt]

theorem sq_apply (hidx : IdxOk m c) (l : Fin 128) :
    (W9 m ρ c (Proc.devRef .tc main_v33_2) : S1x128.Idx → EReal) (ix2 0 l)
      = ∑ M : Fin 62500, rH m c (ix2 (nodeOf M l) (featOf l)) * rH m c (ix2 (nodeOf M l) (featOf l)) := by
  have e1 : (W9 m ρ c (Proc.devRef .tc main_v33_2) : S1x128.Idx → EReal) = accQ (V8 m ρ) c 19 (by decide) :=
    (W9_arr m ρ c 5).trans (arrAt2_5 (V8 m ρ) c)
  rw [e1, accQ_fold m ρ c hidx l 19 _, accFold_19]
  refine (sum_blocks (fun M => Hrow m c l M * Hrow m c l M)).symm.trans (Finset.sum_congr rfl fun M _ => ?_)
  unfold Hrow
  rw [dif_pos M.isLt]

end

end Cert.KernelIdeal.Fr

end
-- ==== Proof.KI.ValH.lean ====
import proofs.«423153_j19997367730281_2_alg».proof.Proof.KI.ValAcc
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import proofs.«423153_j19997367730281_2_alg».proof.Proof.KI.ValMsg
import proofs.«423153_j19997367730281_2_alg».proof.Proof.Math
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.ReferenceIdeal.Read
open Idealize.ShloMosaic.ValueIdx

variable (m : (ℓ : Loc nD τ sig) → Buf (Elt Ideal) ℓ) (ρ : Dev nD → PrngReg) (c : Dev nD)

theorem vh_idx : ∀ t : Fin cfg2.N,
    win2_3.index t (0 : Fin 2) = t.val ∧ win2_3.index t (1 : Fin 2) = 0
    ∧ win2_3.xsize (grid2.coords t) (0 : Fin 2) = (if t.val = 19 then 1700 else 3200) ∧ win2_3.xsize (grid2.coords t) (1 : Fin 2) = 128 :=
  (by decide +kernel : ∀ t : Fin grid2.N, _)

def vh_G (A B : S62500x128.Idx → EReal) (R : S1x128.Idx → EReal) : S62500x128.Idx → EReal :=
  fun i => (A i + B i) + R (ix2 (0 : Fin 1) (⟨(i 1).val, (i 1).isLt⟩ : Fin 128))

section
variable (V : (c : Dev nD) → (b : Ref sig .tc) → Buf (Elt Ideal) ((c : Thread nD τ).loc b))

theorem vh_h_at (t : Fin cfg2.N) (k : Fin 3200) (l : Fin 128) (hin : 3200 * t.val + k.val < 62500) :
    h2 (zb2_0 V c t) (zb2_1 V c t) (row2 V c t) (ix2 k l)
      = vh_G (V c main_v27) (V c main_v28) (V c main_v32) (ix2 ⟨3200 * t.val + k.val, hin⟩ l) := by
  unfold h2
  rw [k2_pay3_at, zb2_0_at V c t k l hin, zb2_1_at V c t k l hin, row2_at V c t l]
  rfl

theorem vh_lt20 (t : Fin cfg2.N) : t.val < 20 := lt_of_lt_of_eq t.isLt N_2

theorem vh_flushed3 (t : Fin cfg2.N) :
    (dat2 V c).flushed 3 t
      = ((cfg2.win 3).blk t).view.read (Elt Ideal) (vh_G (V c main_v27) (V c main_v28) (V c main_v32)) := by
  obtain ⟨e0, e1, x0, x1⟩ := vh_idx t
  show (cfg2.win 3).cut (cfg2.grid.coords t) ((dat2 V c).after 3 t) = _
  rw [after2_3]
  funext y
  have hy0 : (y 0).val < win2_3.xsize (grid2.coords t) (0 : Fin 2) := (y 0).isLt
  have hy1 : (y 1).val < win2_3.xsize (grid2.coords t) (1 : Fin 2) := (y 1).isLt
  rw [x0] at hy0; rw [x1] at hy1
  have ht := vh_lt20 t
  have hk : (y 0).val < 3200 := by split at hy0 <;> omega
  have hin : 3200 * t.val + (y 0).val < 62500 := by split at hy0 <;> omega
  have e : (cfg2.win 3).xinj (cfg2.grid.coords t) y = ix2 (⟨(y 0).val, hk⟩ : Fin 3200) (⟨(y 1).val, hy1⟩ : Fin 128) :=
    funext fun a => match a with | ⟨0, _⟩ => rfl | ⟨1, _⟩ => rfl
  show h2 (zb2_0 V c t) (zb2_1 V c t) (row2 V c t) ((cfg2.win 3).xinj (cfg2.grid.coords t) y)
    = vh_G (V c main_v27) (V c main_v28) (V c main_v32) (((cfg2.win 3).blk t).view.emb y)
  rw [e, vh_h_at c V t _ _ hin]
  congr 1
  funext a; apply Fin.ext
  match a with
  | ⟨0, _⟩ => show 3200 * t.val + (y 0).val = win2_3.index t (0 : Fin 2) * 3200 + 1 * (y 0).val; rw [e0]; omega
  | ⟨1, _⟩ => show (y 1).val = win2_3.index t (1 : Fin 2) * 128 + 1 * (y 1).val; rw [e1]; omega

theorem vh_mem_blk3 (t : Fin cfg2.N) (i : S62500x128.Idx) :
    i ∈ ((cfg2.win 3).blk t).view.set ↔ ∀ a : Fin 2, win2_3.index t a * S3200x128.size a ≤ (i a).val
      ∧ (i a).val < win2_3.index t a * S3200x128.size a + win2_3.xsize (grid2.coords t) a := by
  show i ∈ ((View.whole main_v33_0).slice (win2_3.rect t)).set ↔ _
  rw [View.set_slice_whole, Rect.mem_set_unit]
  exact Iff.rfl

theorem vh_cover3 (i : S62500x128.Idx) :
    ∃ t : Fin cfg2.N, (cfg2.win 3).flush t = true ∧ i ∈ ((cfg2.win 3).blk t).view.set := by
  have hi0 : (i 0).val < 62500 := (i 0).isLt
  have hi1 : (i 1).val < 128 := (i 1).isLt
  have hq : (i 0).val / 3200 < cfg2.N := by rw [show cfg2.N = 20 from N_2]; omega
  obtain ⟨e0, e1, x0, x1⟩ := vh_idx ⟨(i 0).val / 3200, hq⟩
  refine ⟨⟨(i 0).val / 3200, hq⟩, flush2_3 _, (vh_mem_blk3 _ i).mpr fun a => ?_⟩
  match a with
  | ⟨0, _⟩ =>
    show win2_3.index ⟨(i 0).val / 3200, hq⟩ (0 : Fin 2) * 3200 ≤ (i 0).val
      ∧ (i 0).val < win2_3.index ⟨(i 0).val / 3200, hq⟩ (0 : Fin 2) * 3200 + win2_3.xsize (grid2.coords ⟨(i 0).val / 3200, hq⟩) (0 : Fin 2)
    rw [e0, x0]
    show (i 0).val / 3200 * 3200 ≤ (i 0).val ∧ (i 0).val < (i 0).val / 3200 * 3200 + (if (i 0).val / 3200 = 19 then 1700 else 3200)
    split <;> omega
  | ⟨1, _⟩ =>
    show win2_3.index ⟨(i 0).val / 3200, hq⟩ (1 : Fin 2) * 128 ≤ (i 1).val
      ∧ (i 1).val < win2_3.index ⟨(i 0).val / 3200, hq⟩ (1 : Fin 2) * 128 + win2_3.xsize (grid2.coords ⟨(i 0).val / 3200, hq⟩) (1 : Fin 2)
    rw [e1, x1]; omega

theorem vh_arr3 : (dat2 V c).arrAt 3 cfg2.N = vh_G (V c main_v27) (V c main_v28) (V c main_v32) := by
  funext i
  rw [(dat2 V c).arrAt_eq_piecewise 3 _ (fun t _ => vh_flushed3 c V t) i]
  exact if_pos (vh_cover3 i)
end

theorem vh_G_apply (A B : S62500x128.Idx → EReal) (R : S1x128.Idx → EReal) (M : Fin 62500) (l : Fin 128) :
    vh_G A B R (ix2 M l) = (A (ix2 M l) + B (ix2 M l)) + R (ix2 (0 : Fin 1) l) := rfl

/-- The stored block is the reference's pre-normalisation value, read in the [62500, 128] layout. -/
theorem hld_apply (hidx : IdxOk m c) (M : Fin 62500) (l : Fin 128) :
    (W9 m ρ c (Proc.devRef .tc main_v33_0) : S62500x128.Idx → EReal) (ix2 M l) = rH m c (ix2 (nodeOf M l) (featOf l)) := by
  have e : (W9 m ρ c (Proc.devRef .tc main_v33_0) : S62500x128.Idx → EReal)
      = vh_G (W8 m ρ c (Proc.devRef .tc main_v27)) (W8 m ρ c (Proc.devRef .tc main_v28)) (W8 m ρ c (Proc.devRef .tc main_v32)) :=
    (W9_arr m ρ c 3).trans (vh_arr3 c (V8 m ρ))
  rw [e, vh_G_apply, aggld_apply m ρ c hidx M l, xsld_apply m ρ c M l, biasld_apply m ρ c l]
  show _ = val_main_v57 (F := Ideal) _ _ _ _ _ _ _ _ _ _ _ _ _ _
  have hi : idx_main_v55 (idx_main_v56 (ix2 (nodeOf M l) (featOf l))) = ix1 (featOf l) :=
    funext fun a => match a with | ⟨0, _⟩ => rfl
  rw [val_main_v57_apply, val_main_v54_apply, val_main_v56_apply, val_main_v55_apply, Ideal.addf_def, Ideal.addf_def, hi]

end Cert.KernelIdeal.Fr

end
-- ==== Proof.KI.ValStats.lean ====
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import proofs.«423153_j19997367730281_2_alg».proof.Proof.KI.ValH
import proofs.«423153_j19997367730281_2_alg».proof.Proof.Math
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.ReferenceIdeal.Read
open Idealize.ShloMosaic.ValueIdx

variable (m : (ℓ : Loc nD τ sig) → Buf (Elt Ideal) ℓ) (ρ : Dev nD → PrngReg) (c : Dev nD)

abbrev tile8 {α : Type} (x : S16.Idx → α) : S1x128.Idx → α :=
  shapeCast S1x128 (shapeCast S128 (broadcastInDim S8x16 ![0, 1] bcast_S1x16_S8x16_0_1
    (shapeCast S1x16 x shapeCasts_S16_S1x16)) shapeCasts_S8x16_S128) shapeCasts_S128_S1x128

theorem stats_tile_apply {α : Type} (x : S16.Idx → α) (l : Fin 128) :
    tile8 x (ix2 0 l) = x (ix1 (featOf l)) := by
  have hl := l.isLt
  show shapeCast S1x128 _ shapeCasts_S128_S1x128 (ix2 0 l) = _
  rw [shapeCast_apply _ shapeCasts_S128_S1x128 (ix2 0 l) (ix1 l) (by
    rw [Shape.rowMajor_val_one, Shape.rowMajor_val_two]; show l.val = 0 * 128 + l.val; omega)]
  rw [shapeCast_apply _ shapeCasts_S8x16_S128 (ix1 l) (ix2 (⟨l.val / 16, by omega⟩ : Fin 8) (featOf l)) (by
    rw [Shape.rowMajor_val_one, Shape.rowMajor_val_two]; show l.val / 16 * 16 + l.val % 16 = l.val; omega)]
  rw [broadcastInDim_apply _ bcast_S1x16_S8x16_0_1 _ _ (ix2 (0 : Fin 1) (featOf l)) (fun a => match a with
    | ⟨0, _⟩ => by show 0 = if (1 : Nat) = 1 then 0 else _; rw [if_pos rfl]
    | ⟨1, _⟩ => by show l.val % 16 = if (16 : Nat) = 1 then 0 else l.val % 16; rw [if_neg (by decide)])]
  rw [shapeCast_apply _ shapeCasts_S16_S1x16 _ (ix1 (featOf l)) (by
    rw [Shape.rowMajor_val_one, Shape.rowMajor_val_two]; show l.val % 16 = 0 * 16 + l.val % 16; omega)]

abbrev foldDiv (x : S1x128.Idx → EReal) : S16.Idx → EReal :=
  Host.divf (F := Ideal) (Host.reduceAdd (F := Ideal) (shapeCast S8x16 x shapeCasts_S1x128_S8x16)
      (constant (F := Ideal) S_ .f32 0x00000000#32) reducesTo_S8x16_S16_d0 h_S_)
    (broadcastInDim S16 ![] bcast_S_S16 (constant (F := Ideal) S_ .f32 0x48F42400#32))

theorem fold8_apply (x : S1x128.Idx → EReal) (f : Fin 16) :
    foldDiv x (ix1 f)
      = Ideal.div (0 + ∑ g : Fin 8, x (ix2 0 (⟨16 * g.val + f.val, by have := g.isLt; have := f.isLt; omega⟩ : Fin 128)))
          ((500000 : ℝ) : EReal) := by
  show FloatOps.hostDivf _ _ = _
  rw [Ideal.hostDivf_def]
  simp only [Host.reduceAdd, Ideal.hostReduceAdd_def]
  rw [Ideal.hostReduceAdd_single reducesTo_S8x16_S16_d0 (by decide)]
  rw [broadcastInDim_apply _ bcast_S_S16 _ (ix1 f) (fun a => a.elim0) (fun a => a.elim0)]
  show Ideal.div (Ideal.ofBits .f32 0#32 + _) (Ideal.ofBits .f32 0x48F42400#32) = _
  rw [Cert.GnnMath.ofBits_zero, Cert.GnnMath.ofBits_N]
  refine congrArg (fun s => Ideal.div (0 + s) _) (Finset.sum_congr rfl fun g _ => ?_)
  have hg := g.isLt
  have hf := f.isLt
  exact shapeCast_apply x shapeCasts_S1x128_S8x16 _ _ (by
    rw [Shape.rowMajor_val_two, Shape.rowMajor_val_two]
    show 0 * 128 + (16 * g.val + f.val) = g.val * 16 + f.val
    omega)

/-- Lane 16g + f over the eight lane groups and all rows of the [62500, 128] layout meets feature f of every node once. -/
theorem regroup_lanes (y : S500000x16.Idx → EReal) (f : Fin 16) :
    ∑ g : Fin 8, ∑ M : Fin 62500,
        y (ix2 (nodeOf M (⟨16 * g.val + f.val, by have := g.isLt; have := f.isLt; omega⟩ : Fin 128))
              (featOf (⟨16 * g.val + f.val, by have := g.isLt; have := f.isLt; omega⟩ : Fin 128)))
      = ∑ n : Fin 500000, y (ix2 n f) := by
  have h := Cert.GnnMath.sum_regroup8 (fun n => if h : n < 500000 then y (ix2 ⟨n, h⟩ f) else 0)
  have hR : ∑ n : Fin 500000, y (ix2 n f)
      = ∑ n : Fin 500000, (fun n => if h : n < 500000 then y (ix2 ⟨n, h⟩ f) else 0) n.val :=
    Finset.sum_congr rfl fun n _ => by simp only [dif_pos n.isLt]
  rw [hR, ← h]
  refine Finset.sum_congr rfl fun g _ => Finset.sum_congr rfl fun M _ => ?_
  have hg := g.isLt
  have hf := f.isLt
  have hM := M.isLt
  have hlt : 8 * M.val + g.val < 500000 := by omega
  simp only [dif_pos hlt]
  have e1 : nodeOf M (⟨16 * g.val + f.val, by omega⟩ : Fin 128) = ⟨8 * M.val + g.val, hlt⟩ :=
    Fin.ext (by show 8 * M.val + (16 * g.val + f.val) / 16 = 8 * M.val + g.val; omega)
  have e2 : featOf (⟨16 * g.val + f.val, by omega⟩ : Fin 128) = f :=
    Fin.ext (by show (16 * g.val + f.val) % 16 = f.val; omega)
  rw [e1, e2]

theorem rMean_eq (f : Fin 16) :
    rMean m c (ix1 f) = Ideal.div (0 + ∑ k : Fin 500000, rH m c (ix2 k f)) ((500000 : ℝ) : EReal) := by
  have e : ∀ k : Fin 500000, idx_main_v58 (ix1 f) k = ix2 k f := fun k => by
    funext a; match a with | ⟨0, _⟩ => rfl | ⟨1, _⟩ => rfl
  have hsum : ∑ k : Fin 500000, rH m c (idx_main_v58 (ix1 f) k) = ∑ k : Fin 500000, rH m c (ix2 k f) :=
    Finset.sum_congr rfl fun k _ => by rw [e k]
  dsimp only [rMean]
  rw [val_main_v60_apply, val_main_v58_apply, val_main_v59_apply, val_main_cst_7_apply, val_main_cst_8_apply,
    Ideal.hostDivf_def, Ideal.ofBits_def, Ideal.ofBits_def, Cert.GnnMath.ofBits_zero, Cert.GnnMath.ofBits_N]
  exact congrArg (fun s => Ideal.div (0 + s) ((500000 : ℝ) : EReal)) hsum

theorem rVar_eq (f : Fin 16) :
    rVar m c (ix1 f)
      = Ideal.div (0 + ∑ k : Fin 500000,
          (rH m c (ix2 k f) - rMean m c (ix1 f)) * (rH m c (ix2 k f) - rMean m c (ix1 f))) ((500000 : ℝ) : EReal) := by
  have e1 : ∀ k : Fin 500000, idx_main_v65 (ix1 f) k = ix2 k f := fun k => by
    funext a; match a with | ⟨0, _⟩ => rfl | ⟨1, _⟩ => rfl
  have e2 : ∀ k : Fin 500000, idx_main_v61 (idx_main_v62 (ix2 k f)) = ix1 f := fun k => by
    funext a; match a with | ⟨0, _⟩ => rfl
  have hsum : ∑ k : Fin 500000, val_main_v64 (F := Ideal) (inp0 m c) (inp1 m c) (inp2 m c) (inp3 m c) (inp4 m c) (inp5 m c) (inp6 m c) (inp7 m c) (inp8 m c) (inp9 m c) (inp10 m c) (inp11 m c) (inp12 m c) (idx_main_v65 (ix1 f) k)
      = ∑ k : Fin 500000, (rH m c (ix2 k f) - rMean m c (ix1 f)) * (rH m c (ix2 k f) - rMean m c (ix1 f)) :=
    Finset.sum_congr rfl fun k _ => by
      rw [e1 k, val_main_v64_apply, val_main_v63_apply, val_main_v62_apply, val_main_v61_apply, e2 k,
        Ideal.mulf_def, Ideal.subf_def]
  dsimp only [rVar]
  rw [val_main_v67_apply, val_main_v65_apply, val_main_v66_apply, val_main_cst_9_apply, val_main_cst_10_apply,
    Ideal.hostDivf_def, Ideal.ofBits_def, Ideal.ofBits_def, Cert.GnnMath.ofBits_zero, Cert.GnnMath.ofBits_N]
  exact congrArg (fun s => Ideal.div (0 + s) ((500000 : ℝ) : EReal)) hsum

/-- Where every entry is real the two variance formulas agree. -/
theorem var_of_real (y : Fin 500000 → EReal) (hy : ∀ n, ∃ r : ℝ, y n = (r : EReal)) :
    Ideal.div (0 + ∑ n : Fin 500000, y n * y n) ((500000 : ℝ) : EReal)
        - Ideal.div (0 + ∑ n : Fin 500000, y n) ((500000 : ℝ) : EReal) * Ideal.div (0 + ∑ n : Fin 500000, y n) ((500000 : ℝ) : EReal)
      = Ideal.div (0 + ∑ k : Fin 500000,
          (y k - Ideal.div (0 + ∑ n : Fin 500000, y n) ((500000 : ℝ) : EReal))
            * (y k - Ideal.div (0 + ∑ n : Fin 500000, y n) ((500000 : ℝ) : EReal))) ((500000 : ℝ) : EReal) := by
  choose a ha using hy
  have hy' : y = fun n => ((a n : ℝ) : EReal) := funext ha
  rw [hy']
  exact Cert.GnnMath.var_identity_500000 a _ rfl

theorem arg13_W9 : (W9 m ρ c (Proc.devRef .tc main_arg13) : S16.Idx → EReal) = inp13 m c := by
  rw [W9_of m ρ c main_arg13 (by decide), W8_of m ρ c main_arg13 (by decide), W7_of m ρ c main_arg13 (by decide),
    W6_of m ρ c main_arg13 (by decide), W5_of m ρ c main_arg13 (by decide), W4_of m ρ c main_arg13 (by decide),
    W3_of m ρ c main_arg13 (by decide), W2_of m ρ c main_arg13 (by decide), W1_of m ρ c main_arg13 (by decide)]

theorem arg14_W9 : (W9 m ρ c (Proc.devRef .tc main_arg14) : S16.Idx → EReal) = inp14 m c := by
  rw [W9_of m ρ c main_arg14 (by decide), W8_of m ρ c main_arg14 (by decide), W7_of m ρ c main_arg14 (by decide),
    W6_of m ρ c main_arg14 (by decide), W5_of m ρ c main_arg14 (by decide), W4_of m ρ c main_arg14 (by decide),
    W3_of m ρ c main_arg14 (by decide), W2_of m ρ c main_arg14 (by decide), W1_of m ρ c main_arg14 (by decide)]

theorem arg0_W9 : (W9 m ρ c (Proc.devRef .tc main_arg0) : S500000x16.Idx → EReal) = inp0 m c := by
  rw [W9_of m ρ c main_arg0 (by decide), W8_of m ρ c main_arg0 (by decide), W7_of m ρ c main_arg0 (by decide),
    W6_of m ρ c main_arg0 (by decide), W5_of m ρ c main_arg0 (by decide), W4_of m ρ c main_arg0 (by decide),
    W3_of m ρ c main_arg0 (by decide), W2_of m ρ c main_arg0 (by decide), W1_of m ρ c main_arg0 (by decide)]

theorem mean_term :
    (W10 m ρ c (Proc.devRef .tc main_v47) : S1x128.Idx → EReal)
      = tile8 (foldDiv (W9 m ρ c (Proc.devRef .tc main_v33_1) : S1x128.Idx → EReal)) := by
  dsimp only [W10, hostOps3]; after_results_simp; rfl

theorem var_term :
    (W10 m ρ c (Proc.devRef .tc main_v51) : S1x128.Idx → EReal)
      = tile8 (α := EReal) (subf (F := Ideal) (s := S16) (φ := .f32) (foldDiv (W9 m ρ c (Proc.devRef .tc main_v33_2) : S1x128.Idx → EReal))
          (mulf (F := Ideal) (s := S16) (φ := .f32) (foldDiv (W9 m ρ c (Proc.devRef .tc main_v33_1) : S1x128.Idx → EReal))
            (foldDiv (W9 m ρ c (Proc.devRef .tc main_v33_1) : S1x128.Idx → EReal)))) := by
  dsimp only [W10, hostOps3]; after_results_simp; rfl

theorem gamma_term :
    (W10 m ρ c (Proc.devRef .tc main_v55) : S1x128.Idx → EReal)
      = tile8 (W9 m ρ c (Proc.devRef .tc main_arg13) : S16.Idx → EReal) := by
  dsimp only [W10, hostOps3]; after_results_simp; rfl

theorem beta_term :
    (W10 m ρ c (Proc.devRef .tc main_v59) : S1x128.Idx → EReal)
      = tile8 (W9 m ρ c (Proc.devRef .tc main_arg14) : S16.Idx → EReal) := by
  dsimp only [W10, hostOps3]; after_results_simp; rfl

theorem x_term :
    (W10 m ρ c (Proc.devRef .tc main_v60) : S62500x128.Idx → EReal)
      = shapeCast S62500x128 (W9 m ρ c (Proc.devRef .tc main_arg0) : S500000x16.Idx → EReal) shapeCasts_S500000x16_S62500x128 := by
  dsimp only [W10, hostOps3]; after_results_simp; rfl

theorem lane_fold (x : S1x128.Idx → EReal) (y : S500000x16.Idx → EReal)
    (hx : ∀ l : Fin 128, x (ix2 0 l) = ∑ M : Fin 62500, y (ix2 (nodeOf M l) (featOf l))) (f : Fin 16) :
    ∑ g : Fin 8, x (ix2 0 (⟨16 * g.val + f.val, by have := g.isLt; have := f.isLt; omega⟩ : Fin 128))
      = ∑ n : Fin 500000, y (ix2 n f) := by
  rw [← regroup_lanes y f]
  exact Finset.sum_congr rfl fun g _ => hx _

theorem mean_apply (hidx : IdxOk m c) (l : Fin 128) :
    (W10 m ρ c (Proc.devRef .tc main_v47) : S1x128.Idx → EReal) (ix2 0 l) = rMean m c (ix1 (featOf l)) := by
  rw [mean_term, stats_tile_apply, fold8_apply, rMean_eq,
    lane_fold (W9 m ρ c (Proc.devRef .tc main_v33_1) : S1x128.Idx → EReal) (rH m c) (sum_apply m ρ c hidx)]

theorem var_apply (hidx : IdxOk m c) (hreal : HReal m c) (l : Fin 128) :
    (W10 m ρ c (Proc.devRef .tc main_v51) : S1x128.Idx → EReal) (ix2 0 l) = rVar m c (ix1 (featOf l)) := by
  rw [var_term, stats_tile_apply]
  show (foldDiv _ (ix1 (featOf l)) : EReal) - foldDiv _ (ix1 (featOf l)) * foldDiv _ (ix1 (featOf l)) = _
  rw [fold8_apply, fold8_apply, rVar_eq, rMean_eq,
    lane_fold (W9 m ρ c (Proc.devRef .tc main_v33_1) : S1x128.Idx → EReal) (rH m c) (sum_apply m ρ c hidx),
    lane_fold (W9 m ρ c (Proc.devRef .tc main_v33_2) : S1x128.Idx → EReal) (fun j => rH m c j * rH m c j) (sq_apply m ρ c hidx)]
  exact var_of_real (fun n => rH m c (ix2 n (featOf l))) (fun n => hreal (ix2 n (featOf l)))

theorem gamma_apply (l : Fin 128) :
    (W10 m ρ c (Proc.devRef .tc main_v55) : S1x128.Idx → EReal) (ix2 0 l) = inp13 m c (ix1 (featOf l)) := by
  rw [gamma_term, stats_tile_apply, arg13_W9]

theorem beta_apply (l : Fin 128) :
    (W10 m ρ c (Proc.devRef .tc main_v59) : S1x128.Idx → EReal) (ix2 0 l) = inp14 m c (ix1 (featOf l)) := by
  rw [beta_term, stats_tile_apply, arg14_W9]

theorem xld_apply (M : Fin 62500) (l : Fin 128) :
    (W10 m ρ c (Proc.devRef .tc main_v60) : S62500x128.Idx → EReal) (ix2 M l) = inp0 m c (ix2 (nodeOf M l) (featOf l)) := by
  have hM := M.isLt
  have hl := l.isLt
  rw [x_term, arg0_W9]
  exact shapeCast_apply _ shapeCasts_S500000x16_S62500x128 _ _ (by
    rw [Shape.rowMajor_val_two, Shape.rowMajor_val_two]
    show (8 * M.val + l.val / 16) * 16 + l.val % 16 = M.val * 128 + l.val
    omega)

theorem hld10_apply (hidx : IdxOk m c) (M : Fin 62500) (l : Fin 128) :
    (W10 m ρ c (Proc.devRef .tc main_v33_0) : S62500x128.Idx → EReal) (ix2 M l) = rH m c (ix2 (nodeOf M l) (featOf l)) := by
  rw [W10_of m ρ c main_v33_0 (by decide)]
  exact hld_apply m ρ c hidx M l

end Cert.KernelIdeal.Fr

end
-- ==== Proof.KI.ValOut.lean ====
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import proofs.«423153_j19997367730281_2_alg».proof.Proof.KI.ValStats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.ReferenceIdeal.Read
open Idealize.ShloMosaic.ValueIdx

variable (m : (ℓ : Loc nD τ sig) → Buf (Elt Ideal) ℓ) (ρ : Dev nD → PrngReg) (c : Dev nD)

def bnAt (x h mu va ga be : Ideal .f32) : Ideal .f32 :=
  FloatOps.addf x (FloatOps.maximumf (FloatOps.addf (FloatOps.mulf (FloatOps.mulf (FloatOps.subf h mu)
    (FloatOps.rsqrt (FloatOps.addf va (FloatOps.ofBits .f32 0x3727C5AC#32)))) ga) be) (FloatOps.ofBits .f32 0x00000000#32))

theorem out3_6_apply (X H : Vec Ideal S3200x128 .f32) (mu va ga be : Vec Ideal S1x128 .f32) (j : S3200x128.Idx)
    (q : Fin 128) (hq : q.val = (j 1).val) :
    out3_6 X H mu va ga be j
      = bnAt (X j) (H j) (mu (ix2 0 q)) (va (ix2 0 q)) (ga (ix2 0 q)) (be (ix2 0 q)) := by
  have hb : ∀ r : Vec Ideal S1x128 .f32, broadcastTo S3200x128 r broadcasts_S1x128_S3200x128 j = r (ix2 0 q) := fun r =>
    broadcastTo_apply r _ j (ix2 0 q) (fun a => match a with
      | ⟨0, _⟩ => by show (0 : Nat) = if (1 : Nat) = 1 then 0 else _; rw [if_pos rfl]
      | ⟨1, _⟩ => by
        show q.val = if (128 : Nat) = 1 then 0 else _
        rw [if_neg (by decide)]; exact hq)
  unfold out3_6 k3_pay1 bnAt
  simp only [addf, subf, mulf, maximumf, rsqrt, broadcast, shapeCast_self, hb]

theorem out_idx_facts3 : ∀ t : Fin cfg3.N,
    win3_0.index t (0 : Fin 2) = win3_6.index t (0 : Fin 2) ∧ win3_0.index t (1 : Fin 2) = win3_6.index t (1 : Fin 2)
    ∧ win3_1.index t (0 : Fin 2) = win3_6.index t (0 : Fin 2) ∧ win3_1.index t (1 : Fin 2) = win3_6.index t (1 : Fin 2)
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_6.xsize (grid3.coords t) (0 : Fin 2) = min 3200 (62500 - 3200 * t.val)
    ∧ win3_6.xsize (grid3.coords t) (1 : Fin 2) = 128 :=
  (by decide +kernel : ∀ t : Fin grid3.N, _)

section
variable (V : (c : Dev nD) → (b : Ref sig .tc) → Buf (Elt Ideal) ((c : Thread nD τ).loc b))

def outG3 (c : Dev nD) : S62500x128.Idx → EReal := fun i =>
  bnAt ((V c main_v60 : S62500x128.Idx → EReal) i) ((V c main_v33_0 : S62500x128.Idx → EReal) i)
    ((V c main_v47 : S1x128.Idx → EReal) (ix2 0 ⟨(i 1).val, (i 1).isLt⟩))
    ((V c main_v51 : S1x128.Idx → EReal) (ix2 0 ⟨(i 1).val, (i 1).isLt⟩))
    ((V c main_v55 : S1x128.Idx → EReal) (ix2 0 ⟨(i 1).val, (i 1).isLt⟩))
    ((V c main_v59 : S1x128.Idx → EReal) (ix2 0 ⟨(i 1).val, (i 1).isLt⟩))

theorem out_row3_2 (c : Dev nD) (t : Fin cfg3.N) (q : Fin 128) :
    iblk3 V c 2 t (ix2 0 q) = (V c main_v47 : S1x128.Idx → EReal) (ix2 0 q) := by
  obtain ⟨-, -, -, -, e0, e1, -⟩ := out_idx_facts3 t
  show (V c main_v47 : S1x128.Idx → EReal) (((cfg3.win 2).blk t).view.emb (ix2 0 q)) = _
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega
theorem out_row3_3 (c : Dev nD) (t : Fin cfg3.N) (q : Fin 128) :
    iblk3 V c 3 t (ix2 0 q) = (V c main_v51 : S1x128.Idx → EReal) (ix2 0 q) := by
  obtain ⟨-, -, -, -, -, -, e0, e1, -⟩ := out_idx_facts3 t
  show (V c main_v51 : S1x128.Idx → EReal) (((cfg3.win 3).blk t).view.emb (ix2 0 q)) = _
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega
theorem out_row3_4 (c : Dev nD) (t : Fin cfg3.N) (q : Fin 128) :
    iblk3 V c 4 t (ix2 0 q) = (V c main_v55 : S1x128.Idx → EReal) (ix2 0 q) := by
  obtain ⟨-, -, -, -, -, -, -, -, e0, e1, -⟩ := out_idx_facts3 t
  show (V c main_v55 : S1x128.Idx → EReal) (((cfg3.win 4).blk t).view.emb (ix2 0 q)) = _
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega
theorem out_row3_5 (c : Dev nD) (t : Fin cfg3.N) (q : Fin 128) :
    iblk3 V c 5 t (ix2 0 q) = (V c main_v59 : S1x128.Idx → EReal) (ix2 0 q) := by
  obtain ⟨-, -, -, -, -, -, -, -, -, -, e0, e1, -⟩ := out_idx_facts3 t
  show (V c main_v59 : S1x128.Idx → EReal) (((cfg3.win 5).blk t).view.emb (ix2 0 q)) = _
  refine congrArg _ (funext fun a => Fin.ext ?_)
  match a with
  | ⟨0, _⟩ => show win3_5.index t (0 : Fin 2) * 1 + 1 * 0 = 0; omega
  | ⟨1, _⟩ => show win3_5.index t (1 : Fin 2) * 128 + 1 * q.val = q.val; omega

theorem out_blk3_0 (c : Dev nD) (t : Fin cfg3.N) (j : ((cfg3.win 6).xblock (cfg3.grid.coords t)).Idx) :
    xz3_0 V c t ((cfg3.win 6).xinj (cfg3.grid.coords t) j)
      = (V c main_v60 : S62500x128.Idx → EReal) (((cfg3.win 6).blk t).view.emb j) := by
  obtain ⟨e0, e1, -⟩ := out_idx_facts3 t
  refine ((cfg3.win 0).fill_xinj (cfg3.grid.coords t) _ (iblk3 V c 0 t) j).trans ?_
  show (V c main_v60 : S62500x128.Idx → EReal) (((cfg3.win 0).blk t).view.emb j) = _
  refine congrArg _ (funext fun a => Fin.ext ?_)
  match a with
  | ⟨0, _⟩ => show win3_0.index t (0 : Fin 2) * 3200 + 1 * (j 0).val = win3_6.index t (0 : Fin 2) * 3200 + 1 * (j 0).val; omega
  | ⟨1, _⟩ => show win3_0.index t (1 : Fin 2) * 128 + 1 * (j 1).val = win3_6.index t (1 : Fin 2) * 128 + 1 * (j 1).val; omega
theorem out_blk3_1 (c : Dev nD) (t : Fin cfg3.N) (j : ((cfg3.win 6).xblock (cfg3.grid.coords t)).Idx) :
    xz3_1 V c t ((cfg3.win 6).xinj (cfg3.grid.coords t) j)
      = (V c main_v33_0 : S62500x128.Idx → EReal) (((cfg3.win 6).blk t).view.emb j) := by
  obtain ⟨-, -, e0, e1, -⟩ := out_idx_facts3 t
  refine ((cfg3.win 1).fill_xinj (cfg3.grid.coords t) _ (iblk3 V c 1 t) j).trans ?_
  show (V c main_v33_0 : S62500x128.Idx → EReal) (((cfg3.win 1).blk t).view.emb j) = _
  refine congrArg _ (funext fun a => Fin.ext ?_)
  match a with
  | ⟨0, _⟩ => show win3_1.index t (0 : Fin 2) * 3200 + 1 * (j 0).val = win3_6.index t (0 : Fin 2) * 3200 + 1 * (j 0).val; omega
  | ⟨1, _⟩ => show win3_1.index t (1 : Fin 2) * 128 + 1 * (j 1).val = win3_6.index t (1 : Fin 2) * 128 + 1 * (j 1).val; omega

theorem flushed3_6_eq (c : Dev nD) (t : Fin cfg3.N) :
    (dat3 V c).flushed 6 t = ((cfg3.win 6).blk t).view.read (Elt Ideal) (outG3 V c) := by
  show (cfg3.win 6).cut (cfg3.grid.coords t) ((dat3 V c).after 6 t) = _
  rw [after3_6]
  obtain ⟨-, -, -, -, -, -, -, -, -, -, -, -, e60, e61, x0, x1⟩ := out_idx_facts3 t
  funext j
  have hj1 : (j 1).val < win3_6.xsize (grid3.coords t) (1 : Fin 2) := (j 1).isLt
  rw [x1] at hj1
  have hi1 : ((((cfg3.win 6).blk t).view.emb j) 1).val = (j 1).val := by
    show win3_6.index t (1 : Fin 2) * 128 + 1 * (j 1).val = (j 1).val; omega
  show res3_6 V c t ((cfg3.win 6).xinj (cfg3.grid.coords t) j) = outG3 V c (((cfg3.win 6).blk t).view.emb j)
  unfold res3_6 outG3
  rw [out3_6_apply _ _ _ _ _ _ _ ⟨(j 1).val, hj1⟩ rfl, out_blk3_0, out_blk3_1, out_row3_2, out_row3_3, out_row3_4, out_row3_5]
  have hq : (⟨((((cfg3.win 6).blk t).view.emb j) 1).val, ((((cfg3.win 6).blk t).view.emb j) 1).isLt⟩ : Fin 128) = ⟨(j 1).val, hj1⟩ :=
    Fin.ext hi1
  rw [hq]

theorem mem_blk3_6 (t : Fin cfg3.N) (i : S62500x128.Idx) :
    i ∈ ((cfg3.win 6).blk t).view.set ↔ ∀ a : Fin 2, win3_6.index t a * S3200x128.size a ≤ (i a).val
      ∧ (i a).val < win3_6.index t a * S3200x128.size a + win3_6.xsize (grid3.coords t) a := by
  show i ∈ ((View.whole main_v61).slice (win3_6.rect t)).set ↔ _
  rw [View.set_slice_whole, Rect.mem_set_unit]
  exact Iff.rfl

theorem cover3_6' (i : S62500x128.Idx) :
    ∃ t : Fin cfg3.N, (cfg3.win 6).flush t = true ∧ i ∈ ((cfg3.win 6).blk t).view.set := by
  have hi0 : (i 0).val < 62500 := (i 0).isLt
  have hi1 : (i 1).val < 128 := (i 1).isLt
  obtain ⟨t, ht⟩ : ∃ t : Fin cfg3.N, t.val = (i 0).val / 3200 :=
    ⟨⟨(i 0).val / 3200, by show (i 0).val / 3200 < 20; omega⟩, rfl⟩
  refine ⟨t, flush3_6 t, ?_⟩
  obtain ⟨-, -, -, -, -, -, -, -, -, -, -, -, e60, e61, x0, x1⟩ := out_idx_facts3 t
  rw [mem_blk3_6]
  intro a
  match a with
  | ⟨0, _⟩ =>
    show win3_6.index t (0 : Fin 2) * 3200 ≤ (i 0).val
      ∧ (i 0).val < win3_6.index t (0 : Fin 2) * 3200 + win3_6.xsize (grid3.coords t) (0 : Fin 2)
    rw [e60, x0]; omega
  | ⟨1, _⟩ =>
    show win3_6.index t (1 : Fin 2) * 128 ≤ (i 1).val
      ∧ (i 1).val < win3_6.index t (1 : Fin 2) * 128 + win3_6.xsize (grid3.coords t) (1 : Fin 2)
    rw [e61, x1]; omega

theorem arr3_6 (c : Dev nD) : (dat3 V c).arrAt 6 cfg3.N = outG3 V c :=
  (dat3 V c).arrAt_eq_of_cover 6 (outG3 V c) (fun t _ => flushed3_6_eq V c t) cover3_6'

end

theorem ref_out_apply (x0 : (⟨S500000x16, .f32⟩ : BufTy).Contents (Elt Ideal)) (x1 : (⟨S2x5000000, .i32⟩ : BufTy).Contents (Elt Ideal)) (x2 : (⟨S5000000x16, .f32⟩ : BufTy).Contents (Elt Ideal)) (x3 : (⟨S16x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16x16, .f32⟩ : BufTy).Contents (Elt Ideal)) (x8 : (⟨S16, .f32⟩ : BufTy).Contents (Elt Ideal)) (x9 x10 : (⟨S16x16, .f32⟩ : BufTy).Contents (Elt Ideal)) (x11 x12 x13 x14 : (⟨S16, .f32⟩ : BufTy).Contents (Elt Ideal)) (n : Fin 500000) (f : Fin 16) :
    val_main_v84 (F := Ideal) x0 x1 x2 x3 x4 x5 x6 x7 x8 x9 x10 x11 x12 x13 x14 (ix2 n f)
      = bnAt (x0 (ix2 n f)) (val_main_v57 (F := Ideal) x0 x1 x2 x3 x4 x5 x6 x7 x8 x9 x10 x11 x12 (ix2 n f))
          (val_main_v60 (F := Ideal) x0 x1 x2 x3 x4 x5 x6 x7 x8 x9 x10 x11 x12 (ix1 f)) (val_main_v67 (F := Ideal) x0 x1 x2 x3 x4 x5 x6 x7 x8 x9 x10 x11 x12 (ix1 f))
          (x13 (ix1 f)) (x14 (ix1 f)) := by
  have k68 : idx_main_v68 (idx_main_v69 (ix2 n f)) = ix1 f := funext fun a => match a with | ⟨0, _⟩ => rfl
  have k74 : idx_main_v74 (idx_main_v75 (ix2 n f)) = ix1 f := funext fun a => match a with | ⟨0, _⟩ => rfl
  have k77 : idx_main_v77 (idx_main_v78 (ix2 n f)) = ix1 f := funext fun a => match a with | ⟨0, _⟩ => rfl
  have k80 : idx_main_v80 (idx_main_v81 (ix2 n f)) = ix1 f := funext fun a => match a with | ⟨0, _⟩ => rfl
  rw [val_main_v84_apply, val_main_v83_apply, val_main_v82_apply, val_main_v79_apply, val_main_v76_apply,
    val_main_v70_apply, val_main_v69_apply, val_main_v68_apply, k68,
    val_main_v75_apply, val_main_v74_apply, k74, val_main_v73_apply, val_main_v72_apply, val_main_v71_apply,
    val_main_cst_11_apply,
    val_main_v78_apply, val_main_v77_apply, k77, val_main_v81_apply, val_main_v80_apply, k80,
    val_main_call0_v0_apply, val_main_call0_cst_apply]
  rfl

theorem outG3_apply (M : Fin 62500) (l : Fin 128) :
    outG3 (V10 m ρ) c (ix2 M l)
      = bnAt ((W10 m ρ c (Proc.devRef .tc main_v60) : S62500x128.Idx → EReal) (ix2 M l))
          ((W10 m ρ c (Proc.devRef .tc main_v33_0) : S62500x128.Idx → EReal) (ix2 M l))
          ((W10 m ρ c (Proc.devRef .tc main_v47) : S1x128.Idx → EReal) (ix2 0 l))
          ((W10 m ρ c (Proc.devRef .tc main_v51) : S1x128.Idx → EReal) (ix2 0 l))
          ((W10 m ρ c (Proc.devRef .tc main_v55) : S1x128.Idx → EReal) (ix2 0 l))
          ((W10 m ρ c (Proc.devRef .tc main_v59) : S1x128.Idx → EReal) (ix2 0 l)) := rfl

/-- The kernel's result is the reference's result, entry by entry. -/
theorem out_eq (hidx : IdxOk m c) (hreal : HReal m c) :
    (W12 m ρ c (Proc.devRef .tc main_v62) : S500000x16.Idx → EReal) = rOut m c := by
  have e12 : (W12 m ρ c (Proc.devRef .tc main_v62) : S500000x16.Idx → EReal)
      = shapeCast S500000x16 (W11 m ρ c (Proc.devRef .tc main_v61) : S62500x128.Idx → EReal)
          shapeCasts_S62500x128_S500000x16 := by
    dsimp only [W12, hostOps4]; after_results; rfl
  have e11 : (W11 m ρ c (Proc.devRef .tc main_v61) : S62500x128.Idx → EReal) = outG3 (V10 m ρ) c :=
    (W11_arr m ρ c 6).trans (arr3_6 (V10 m ρ) c)
  rw [e12, e11]
  funext i
  obtain ⟨n, f, rfl⟩ : ∃ (n : Fin 500000) (f : Fin 16), i = ix2 n f := ⟨i 0, i 1, eq_ix2 i⟩
  have hn := n.isLt
  have hf := f.isLt
  have hM : n.val / 8 < 62500 := by omega
  have hl : 16 * (n.val % 8) + f.val < 128 := by omega
  have hnode : nodeOf ⟨n.val / 8, hM⟩ ⟨16 * (n.val % 8) + f.val, hl⟩ = n :=
    Fin.ext (by show 8 * (n.val / 8) + (16 * (n.val % 8) + f.val) / 16 = n.val; omega)
  have hfeat : featOf ⟨16 * (n.val % 8) + f.val, hl⟩ = f :=
    Fin.ext (by show (16 * (n.val % 8) + f.val) % 16 = f.val; omega)
  rw [shapeCast_apply _ _ (ix2 n f) (ix2 ⟨n.val / 8, hM⟩ ⟨16 * (n.val % 8) + f.val, hl⟩)
      (by rw [Shape.rowMajor_val_two, Shape.rowMajor_val_two]
          show (n.val / 8) * 128 + (16 * (n.val % 8) + f.val) = n.val * 16 + f.val; omega),
    outG3_apply, xld_apply, hld10_apply m ρ c hidx, mean_apply m ρ c hidx, var_apply m ρ c hidx hreal, gamma_apply,
    beta_apply, hnode, hfeat]
  exact (ref_out_apply (inp0 m c) (inp1 m c) (inp2 m c) (inp3 m c) (inp4 m c) (inp5 m c) (inp6 m c) (inp7 m c)
    (inp8 m c) (inp9 m c) (inp10 m c) (inp11 m c) (inp12 m c) (inp13 m c) (inp14 m c) n f).symm

end Cert.KernelIdeal.Fr

end
-- ==== Proof.KI.ValReal.lean ====
import proofs.«423153_j19997367730281_2_alg».proof.Proof.Gen.KernelIdeal.Launch
import proofs.«423153_j19997367730281_2_alg».proof.Proof.Gen.KernelIdeal.Skeleton
import proofs.«423153_j19997367730281_2_alg».proof.Proof.Gen.KernelIdeal.Points
import proofs.«423153_j19997367730281_2_alg».proof.Proof.KI.ValDefs
import proofs.«423153_j19997367730281_2_alg».proof.Proof.Math
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.RefReal

open Cert.ReferenceIdeal Cert.ReferenceIdeal.Gen Cert.ReferenceIdeal.Read
open Idealize.ShloMosaic Idealize.ShloMosaic.StableHlo
open Cert.GnnMath

abbrev TNode : Type := (⟨S500000x16, .f32⟩ : BufTy).Contents (Elt Ideal)
abbrev TEdge : Type := (⟨S5000000x16, .f32⟩ : BufTy).Contents (Elt Ideal)
abbrev TIdx : Type := (⟨S2x5000000, .i32⟩ : BufTy).Contents (Elt Ideal)
abbrev TMat : Type := (⟨S16x16, .f32⟩ : BufTy).Contents (Elt Ideal)
abbrev TVec : Type := (⟨S16, .f32⟩ : BufTy).Contents (Elt Ideal)

theorem real_v47 (i : S500000x16.Idx) : IsReal (val_main_v47 (F := Ideal) i) := by
  rw [val_main_v47_apply, val_main_cst_6_apply, Ideal.ofBits_def, ofBits_zero]; exact IsReal.zero

theorem real_scatterAdd {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) :=
  (hx i).add (IsReal.sum _ _ (fun j _ => hu j))

/-- Every entry of every float argument of the reference is a real number. -/
structure Reals (x0 : TNode) (x2 : TEdge) (x3 : TMat) (x4 : TVec) (x5 : TMat) (x6 : TVec) (x7 : TMat) (x8 : TVec)
    (x9 x10 : TMat) (x11 x12 : TVec) : Prop where
  h0 : ∀ i, IsReal (x0 i)
  h2 : ∀ i, IsReal (x2 i)
  h3 : ∀ i, IsReal (x3 i)
  h4 : ∀ i, IsReal (x4 i)
  h5 : ∀ i, IsReal (x5 i)
  h6 : ∀ i, IsReal (x6 i)
  h7 : ∀ i, IsReal (x7 i)
  h8 : ∀ i, IsReal (x8 i)
  h9 : ∀ i, IsReal (x9 i)
  h10 : ∀ i, IsReal (x10 i)
  h11 : ∀ i, IsReal (x11 i)
  h12 : ∀ i, IsReal (x12 i)

variable {x0 : TNode} {x1 : TIdx} {x2 : TEdge} {x3 : TMat} {x4 : TVec} {x5 : TMat} {x6 : TVec} {x7 : TMat} {x8 : TVec}
  {x9 x10 : TMat} {x11 x12 : TVec} (H : Reals x0 x2 x3 x4 x5 x6 x7 x8 x9 x10 x11 x12)
include H

/-! Sums, products, the logistic gate and gathers of real numbers are real: every stage up to the pre-normalisation
    value is. -/

theorem real_v4 (i : S500000x16.Idx) : IsReal (val_main_v4 (F := Ideal) x0 x3 i) := by
  rw [val_main_v4_apply]; exact IsReal.sum _ _ (fun k _ => (H.h0 _).mul (H.h3 _))
theorem real_v6 (i : S500000x16.Idx) : IsReal (val_main_v6 (F := Ideal) x4 i) := by
  rw [val_main_v6_apply, val_main_v5_apply]; exact H.h4 _
theorem real_v7 (i : S500000x16.Idx) : IsReal (val_main_v7 (F := Ideal) x0 x3 x4 i) := by
  rw [val_main_v7_apply]; exact (real_v4 H _).add (real_v6 H _)
theorem real_v8 (i : S500000x16.Idx) : IsReal (val_main_v8 (F := Ideal) x0 x5 i) := by
  rw [val_main_v8_apply]; exact IsReal.sum _ _ (fun k _ => (H.h0 _).mul (H.h5 _))
theorem real_v10 (i : S500000x16.Idx) : IsReal (val_main_v10 (F := Ideal) x6 i) := by
  rw [val_main_v10_apply, val_main_v9_apply]; exact H.h6 _
theorem real_v11 (i : S500000x16.Idx) : IsReal (val_main_v11 (F := Ideal) x0 x5 x6 i) := by
  rw [val_main_v11_apply]; exact (real_v8 H _).add (real_v10 H _)
theorem real_v12 (i : S500000x16.Idx) : IsReal (val_main_v12 (F := Ideal) x0 x7 i) := by
  rw [val_main_v12_apply]; exact IsReal.sum _ _ (fun k _ => (H.h0 _).mul (H.h7 _))
theorem real_v14 (i : S500000x16.Idx) : IsReal (val_main_v14 (F := Ideal) x8 i) := by
  rw [val_main_v14_apply, val_main_v13_apply]; exact H.h8 _
theorem real_v15 (i : S500000x16.Idx) : IsReal (val_main_v15 (F := Ideal) x0 x7 x8 i) := by
  rw [val_main_v15_apply]; exact (real_v12 H _).add (real_v14 H _)
theorem real_v16 (i : S5000000x16.Idx) : IsReal (val_main_v16 (F := Ideal) x2 x9 i) := by
  rw [val_main_v16_apply]; exact IsReal.sum _ _ (fun k _ => (H.h2 _).mul (H.h9 _))
theorem real_v23 (i : S5000000x16.Idx) : IsReal (val_main_v23 (F := Ideal) x0 x1 x3 x4 i) := by
  unfold val_main_v23 Host.gather; exact real_v7 H _
theorem real_v24 (i : S5000000x16.Idx) : IsReal (val_main_v24 (F := Ideal) x0 x1 x2 x3 x4 x9 i) := by
  rw [val_main_v24_apply]; exact (real_v23 H _).add (real_v16 H _)
theorem real_v31 (i : S5000000x16.Idx) : IsReal (val_main_v31 (F := Ideal) x0 x1 x5 x6 i) := by
  unfold val_main_v31 Host.gather; exact real_v11 H _
theorem real_v32 (i : S5000000x16.Idx) : IsReal (val_main_v32 (F := Ideal) x0 x1 x2 x3 x4 x5 x6 x9 i) := by
  rw [val_main_v32_apply]; exact (real_v24 H _).add (real_v31 H _)
theorem real_v38 (i : S5000000x16.Idx) : IsReal (val_main_v38 (F := Ideal) x0 x1 x2 x3 x4 x5 x6 x9 i) := by
  rw [val_main_v38_apply, val_main_v37_apply, val_main_cst_3_apply, val_main_v36_apply, val_main_v35_apply,
    val_main_cst_apply, val_main_v34_apply, val_main_v33_apply]
  exact IsReal.hostGate_lit (real_v32 H _)
theorem real_v45 (i : S5000000x16.Idx) : IsReal (val_main_v45 (F := Ideal) x0 x1 x7 x8 i) := by
  unfold val_main_v45 Host.gather; exact real_v15 H _
theorem real_v46 (i : S5000000x16.Idx) : IsReal (val_main_v46 (F := Ideal) x0 x1 x2 x3 x4 x5 x6 x7 x8 x9 i) := by
  rw [val_main_v46_apply]; exact (real_v38 H _).mul (real_v45 H _)
theorem real_v49 (i : S500000x16.Idx) : IsReal (val_main_v49 (F := Ideal) x0 x1 x2 x3 x4 x5 x6 x7 x8 x9 i) := by
  unfold val_main_v49; exact real_scatterAdd _ _ _ _ real_v47 (real_v46 H) i
theorem real_v50 (i : S500000x16.Idx) : IsReal (val_main_v50 (F := Ideal) x0 x10 i) := by
  rw [val_main_v50_apply]; exact IsReal.sum _ _ (fun k _ => (H.h0 _).mul (H.h10 _))
theorem real_v52 (i : S500000x16.Idx) : IsReal (val_main_v52 (F := Ideal) x11 i) := by
  rw [val_main_v52_apply, val_main_v51_apply]; exact H.h11 _
theorem real_v53 (i : S500000x16.Idx) : IsReal (val_main_v53 (F := Ideal) x0 x10 x11 i) := by
  rw [val_main_v53_apply]; exact (real_v50 H _).add (real_v52 H _)
theorem real_v56 (i : S500000x16.Idx) : IsReal (val_main_v56 (F := Ideal) x12 i) := by
  rw [val_main_v56_apply, val_main_v55_apply]; exact H.h12 _
theorem real_v57 (i : S500000x16.Idx) : IsReal (val_main_v57 (F := Ideal) x0 x1 x2 x3 x4 x5 x6 x7 x8 x9 x10 x11 x12 i) := by
  rw [val_main_v57_apply, val_main_v54_apply]; exact ((real_v49 H _).add (real_v53 H _)).add (real_v56 H _)

end Cert.RefReal

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.ReferenceIdeal.Read
open Idealize.ShloMosaic.ValueIdx

variable (m : (ℓ : Loc nD τ sig) → Buf (Elt Ideal) ℓ) (ρ : Dev nD → PrngReg) (c : Dev nD)

theorem h_real
    (h0 : ∀ i, ∃ r : ℝ, inp0 m c i = (r : EReal)) (h2 : ∀ i, ∃ r : ℝ, inp2 m c i = (r : EReal))
    (h3 : ∀ i, ∃ r : ℝ, inp3 m c i = (r : EReal)) (h4 : ∀ i, ∃ r : ℝ, inp4 m c i = (r : EReal))
    (h5 : ∀ i, ∃ r : ℝ, inp5 m c i = (r : EReal)) (h6 : ∀ i, ∃ r : ℝ, inp6 m c i = (r : EReal))
    (h7 : ∀ i, ∃ r : ℝ, inp7 m c i = (r : EReal)) (h8 : ∀ i, ∃ r : ℝ, inp8 m c i = (r : EReal))
    (h9 : ∀ i, ∃ r : ℝ, inp9 m c i = (r : EReal)) (h10 : ∀ i, ∃ r : ℝ, inp10 m c i = (r : EReal))
    (h11 : ∀ i, ∃ r : ℝ, inp11 m c i = (r : EReal)) (h12 : ∀ i, ∃ r : ℝ, inp12 m c i = (r : EReal)) :
    HReal m c := by
  unfold HReal
  intro i
  exact Cert.RefReal.real_v57 ⟨h0, h2, h3, h4, h5, h6, h7, h8, h9, h10, h11, h12⟩ i

end Cert.KernelIdeal.Fr

end
-- ==== Proof.PreDecode.lean ====
import proofs.«423153_j19997367730281_2_alg».proof.Pre_finite_inputs
import Idealize.ShloMosaic.Lib.ReduceAll
import Idealize.ShloMosaic.Lib.StableHlo.Predicate
import Idealize.ShloMosaic.PureOps.Ideal
import Idealize.ShloMosaic.Lib.ValueIdx

noncomputable section

namespace Cert.PreDecode

open Idealize.ShloMosaic Cert.Pre_finite_inputs

instance : Subsingleton S_.Idx := ⟨fun a b => funext fun d => d.elim0⟩

theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have hT : Ideal.ofBits .f32 0x7F800000#32 = ⊤ := by simp [Ideal.ofBits, Ideal.ieee]
  change Ideal.cmp .olt (max x (-x)) (Ideal.ofBits .f32 0x7F800000#32) = 1#1 at h
  rw [hT] at h
  induction x using EReal.rec with
  | bot => simp [Ideal.cmp] at h
  | coe r => exact ⟨r, rfl⟩
  | top => simp [Ideal.cmp] at h

theorem finite_of_all {s : Shape} {axes : List (Fin s.rank)} (hb : S_.BroadcastsInDim s (![] : Fin 0 → Fin s.rank))
    (hr : s.ReducesTo axes S_) (hu : 0 < S_.numel) (x : FVec Ideal s .f32)
    (e : Host.reduce IntOp.andi (cmpf .olt (Host.absf x) (broadcastInDim s ![] hb (constant S_ .f32 0x7F800000#32)))
      (constantI S_ 1 1#1) hr hu ValueIdx.ix0 = 1#1) :
    ∀ i, ∃ r : ℝ, x i = (r : EReal) := fun i =>
  real_of_abs_lt (x i) (Host.reduce_andi_all _ _ hr hu _ e i)

theorem sge_of_all {s : Shape} {axes : List (Fin s.rank)} (hb : S_.BroadcastsInDim s (![] : Fin 0 → Fin s.rank))
    (hr : s.ReducesTo axes S_) (hu : 0 < S_.numel) (x : IVec s 32) (c : BitVec 32)
    (e : Host.reduce IntOp.andi (cmpi .sge x (broadcastInDim s ![] hb (constantI S_ 32 c)))
      (constantI S_ 1 1#1) hr hu ValueIdx.ix0 = 1#1) :
    ∀ i, c.toInt ≤ (x i).toInt := fun i =>
  IntOp.cmpi_sge.1 (Host.reduce_andi_all _ _ hr hu _ e i)

theorem slt_of_all {s : Shape} {axes : List (Fin s.rank)} (hb : S_.BroadcastsInDim s (![] : Fin 0 → Fin s.rank))
    (hr : s.ReducesTo axes S_) (hu : 0 < S_.numel) (x : IVec s 32) (c : BitVec 32)
    (e : Host.reduce IntOp.andi (cmpi .slt x (broadcastInDim s ![] hb (constantI S_ 32 c)))
      (constantI S_ 1 1#1) hr hu ValueIdx.ix0 = 1#1) :
    ∀ i, (x i).toInt < c.toInt := fun i =>
  IntOp.cmpi_slt.1 (Host.reduce_andi_all _ _ hr hu _ e i)

variable [Facts]

theorem decode_idx {F : FTy → Type} [FloatOps F] (x0 : FVec F S500000x16 .f32) (x1 : IVec S2x5000000 32) (x2 : FVec F S5000000x16 .f32) (x3 : FVec F S16x16 .f32) (x4 : FVec F S16 .f32) (x5 : FVec F S16x16 .f32) (x6 : FVec F S16 .f32) (x7 : FVec F S16x16 .f32) (x8 : FVec F S16 .f32) (x9 x10 : FVec F S16x16 .f32) (x11 x12 x13 x14 : FVec F S16 .f32)
    (h : fn (F := F) x0 x1 x2 x3 x4 x5 x6 x7 x8 x9 x10 x11 x12 x13 x14 = fun _ => 1#1) :
    ∀ i : S2x5000000.Idx, 0 ≤ (x1 i).toInt ∧ (x1 i).toInt < 500000 := by
  have e := congrFun h ValueIdx.ix0
  dsimp only [fn, fn_part1, fn_part2, fn_part3, fn_part4] at e
  obtain ⟨e72, e75⟩ := IntOp.andi_eq_one.1 e
  obtain ⟨-, e71⟩ := IntOp.andi_eq_one.1 e72
  intro i
  have h0 := sge_of_all _ _ _ x1 _ e71 i
  have h1 := slt_of_all _ _ _ x1 _ e75 i
  have c0 : (0#32 : BitVec 32).toInt = 0 := by decide
  have c1 : (500000#32 : BitVec 32).toInt = 500000 := by decide
  rw [c0] at h0
  rw [c1] at h1
  exact ⟨h0, h1⟩

/-- The precondition read back: every float input is real and every edge endpoint lies in [0, 500000). -/
theorem decode (x0 : FVec Ideal S500000x16 .f32) (x1 : IVec S2x5000000 32) (x2 : FVec Ideal S5000000x16 .f32) (x3 : FVec Ideal S16x16 .f32) (x4 : FVec Ideal S16 .f32) (x5 : FVec Ideal S16x16 .f32) (x6 : FVec Ideal S16 .f32) (x7 : FVec Ideal S16x16 .f32) (x8 : FVec Ideal S16 .f32) (x9 x10 : FVec Ideal S16x16 .f32) (x11 x12 x13 x14 : FVec Ideal S16 .f32)
    (h : Cert.Pre_finite_inputs.fn (F := Ideal) x0 x1 x2 x3 x4 x5 x6 x7 x8 x9 x10 x11 x12 x13 x14 = fun _ => 1#1) :
    (∀ i, ∃ r : ℝ, x0 i = (r : EReal)) ∧ (∀ i, ∃ r : ℝ, x2 i = (r : EReal)) ∧ (∀ i, ∃ r : ℝ, x3 i = (r : EReal)) ∧ (∀ i, ∃ r : ℝ, x4 i = (r : EReal)) ∧ (∀ i, ∃ r : ℝ, x5 i = (r : EReal)) ∧ (∀ i, ∃ r : ℝ, x6 i = (r : EReal)) ∧ (∀ i, ∃ r : ℝ, x7 i = (r : EReal)) ∧ (∀ i, ∃ r : ℝ, x8 i = (r : EReal)) ∧ (∀ i, ∃ r : ℝ, x9 i = (r : EReal)) ∧ (∀ i, ∃ r : ℝ, x10 i = (r : EReal)) ∧ (∀ i, ∃ r : ℝ, x11 i = (r : EReal)) ∧ (∀ i, ∃ r : ℝ, x12 i = (r : EReal)) ∧ (∀ i, ∃ r : ℝ, x13 i = (r : EReal)) ∧ (∀ i, ∃ r : ℝ, x14 i = (r : EReal)) ∧ (∀ i : S2x5000000.Idx, 0 ≤ (x1 i).toInt ∧ (x1 i).toInt < 500000) := by
  have e := congrFun h ValueIdx.ix0
  dsimp only [fn, fn_part1, fn_part2, fn_part3, fn_part4] at e
  obtain ⟨e72, -⟩ := IntOp.andi_eq_one.1 e
  obtain ⟨e68, -⟩ := IntOp.andi_eq_one.1 e72
  obtain ⟨e63, e67⟩ := IntOp.andi_eq_one.1 e68
  obtain ⟨e58, e62⟩ := IntOp.andi_eq_one.1 e63
  obtain ⟨e53, e57⟩ := IntOp.andi_eq_one.1 e58
  obtain ⟨e48, e52⟩ := IntOp.andi_eq_one.1 e53
  obtain ⟨e43, e47⟩ := IntOp.andi_eq_one.1 e48
  obtain ⟨e38, e42⟩ := IntOp.andi_eq_one.1 e43
  obtain ⟨e33, e37⟩ := IntOp.andi_eq_one.1 e38
  obtain ⟨e28, e32⟩ := IntOp.andi_eq_one.1 e33
  obtain ⟨e23, e27⟩ := IntOp.andi_eq_one.1 e28
  obtain ⟨e18, e22⟩ := IntOp.andi_eq_one.1 e23
  obtain ⟨e13, e17⟩ := IntOp.andi_eq_one.1 e18
  obtain ⟨e8, e12⟩ := IntOp.andi_eq_one.1 e13
  obtain ⟨e3, e7⟩ := IntOp.andi_eq_one.1 e8
  exact ⟨finite_of_all _ _ _ x0 e3, finite_of_all _ _ _ x2 e7, finite_of_all _ _ _ x3 e12, finite_of_all _ _ _ x4 e17, finite_of_all _ _ _ x5 e22, finite_of_all _ _ _ x6 e27, finite_of_all _ _ _ x7 e32, finite_of_all _ _ _ x8 e37, finite_of_all _ _ _ x9 e42, finite_of_all _ _ _ x10 e47, finite_of_all _ _ _ x11 e52, finite_of_all _ _ _ x12 e57, finite_of_all _ _ _ x13 e62, finite_of_all _ _ _ x14 e67,
    decode_idx x0 x1 x2 x3 x4 x5 x6 x7 x8 x9 x10 x11 x12 x13 x14 h⟩

end Cert.PreDecode

end
-- ==== Proof.lean ====
/-
  A residual gated graph layer against its reference, over the extended reals: node projections, an edge
  projection, sigmoid-gated messages summed at their targets, batch statistics over the nodes, normalisation, relu and
  the residual.  The kernel's lane-dense sums regroup the reference's, and its variance E[h²] − mean² is the
  reference's E[(h − mean)²] where every h is real; the gathers agree where every edge endpoint is a node.
-/
import proofs.«423153_j19997367730281_2_alg».proof.Defs
import proofs.«423153_j19997367730281_2_alg».proof.Proof.Gen.ReferenceIdeal
import proofs.«423153_j19997367730281_2_alg».proof.Proof.Gen.ReferenceIdeal.Run
import proofs.«423153_j19997367730281_2_alg».proof.Proof.Gen.ReferenceIdeal.Read
import proofs.«423153_j19997367730281_2_alg».proof.Proof.SameProgram
import proofs.«423153_j19997367730281_2_alg».proof.Proof.KI.ValOut
import proofs.«423153_j19997367730281_2_alg».proof.Proof.KI.ValReal
import proofs.«423153_j19997367730281_2_alg».proof.Proof.PreDecode
import Idealize.ShloMosaic.Adequacy
import Idealize.ShloMosaic.Init

noncomputable section

namespace Cert.Proof

open Idealize.ShloMosaic Idealize.SL.Sem Idealize.ShloMosaic.TcCoe

theorem claim : Cert.Claim := ⟨Cert.Kernel.Gen.facts, Cert.KernelIdeal.Gen.facts, Cert.ReferenceIdeal.Gen.facts, Cert.Pre_finite_inputs.Gen.facts, by
  refine ⟨Cert.Same.frame, fun m ρ _ => Cert.KernelIdeal.Fr.frame (F := Ideal) m ρ,
    fun m ρ _ => (θ_run Cert.ReferenceIdeal.defs _ _).mono (fun _ h c => (h c).2) (Cert.ReferenceIdeal.Value.run (F := Ideal) m ρ),
    trivial, ?_⟩
  intro m ρ m' ρ' hpre hagree
  refine ⟨fun c => Cert.KernelIdeal.Fr.rOut m c, ?_, ?_⟩
  · refine (θ_run Cert.KernelIdeal.defs _ _).mono (fun r h c => ?_) (Cert.KernelIdeal.Fr.run_result (F := Ideal) m ρ)
    obtain ⟨h0, h2, h3, h4, h5, h6, h7, h8, h9, h10, h11, h12, _, _, hidx⟩ :=
      Cert.PreDecode.decode _ _ _ _ _ _ _ _ _ _ _ _ _ _ _ (hpre c)
    exact ⟨(h c).1.trans (Cert.KernelIdeal.Fr.out_eq m ρ c hidx
      (Cert.KernelIdeal.Fr.h_real m c h0 h2 h3 h4 h5 h6 h7 h8 h9 h10 h11 h12)), (h c).2⟩
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14⟩ := hagree c
    rw [(h c).1, Cert.ReferenceIdeal.Read.val_main_v84_eq, e0, e1, e2, e3, e4, e5, e6, e7, e8, e9, e10, e11, e12, e13, e14]⟩

end Cert.Proof

end
